-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S600000 : S_.BroadcastsInDim S600000 (![] : Fin 0 → Fin S600000.rank)
  reducesTo_S600000_S_d0 : S600000.ReducesTo [0] S_

variable [Facts]

def fn_part3 {F : FTy → Type} [FloatOps F] (main_v47 : IVec S_ 1) (main_v49 : IVec S600000 1) (main_c_19 : IVec S_ 1) : IVec S_ 1 :=
  let main_v50 : IVec S_ 1 := (fun x v => Host.reduce IntOp.andi x v reducesTo_S600000_S_d0 h_S_) main_v49 main_c_19
  let main_v51 : IVec S_ 1 := andi main_v47 main_v50
  main_v51

def fn_part2 {F : FTy → Type} [FloatOps F] (main_arg1 : IVec S600000 32) (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S600000 32 := broadcastInDim S600000 ![] bcast_S_S600000 main_c_16
  let main_v45 : IVec S600000 1 := cmpi .sge main_arg1 main_v44
  let main_c_17 : IVec S_ 1 := constantI S_ 1 1#1
  let main_v46 : IVec S_ 1 := (fun x v => Host.reduce IntOp.andi x v reducesTo_S600000_S_d0 h_S_) main_v45 main_c_17
  let main_v47 : IVec S_ 1 := andi main_v43 main_v46
  let main_c_18 : IVec S_ 32 := constantI S_ 32 50000#32
  let main_v48 : IVec S600000 32 := broadcastInDim S600000 ![] bcast_S_S600000 main_c_18
  let main_v49 : IVec S600000 1 := cmpi .slt main_arg1 main_v48
  let main_c_19 : IVec S_ 1 := constantI S_ 1 1#1
  fn_part3 (F := F) main_v47 main_v49 main_c_19

def fn_part1 {F : FTy → Type} [FloatOps F] (main_arg1 : IVec S600000 32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S601600 : Shape := ⟨1, ![601600]⟩
abbrev S601600x1 : Shape := ⟨2, ![601600, 1]⟩
abbrev S1x601600 : Shape := ⟨2, ![1, 601600]⟩
abbrev S601600x128 : Shape := ⟨2, ![601600, 128]⟩
abbrev S6400x1 : Shape := ⟨2, ![6400, 1]⟩
abbrev S2000x128 : Shape := ⟨2, ![2000, 128]⟩
abbrev S6400x128 : Shape := ⟨2, ![6400, 128]⟩
abbrev S1x2000 : Shape := ⟨2, ![1, 2000]⟩
abbrev S6400x2000 : Shape := ⟨2, ![6400, 2000]⟩
abbrev S1x6400 : Shape := ⟨2, ![1, 6400]⟩
abbrev S2000x1 : Shape := ⟨2, ![2000, 1]⟩
abbrev S2000x6400 : Shape := ⟨2, ![2000, 6400]⟩
abbrev S5000x128 : Shape := ⟨2, ![5000, 128]⟩
abbrev S1x128 : Shape := ⟨2, ![1, 128]⟩

abbrev nBuf : Space → Nat
  | .hbm => 27
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S_, .i32⟩
  | .hbm, ⟨13, _⟩ => ⟨S601600, .i32⟩
  | .hbm, ⟨14, _⟩ => ⟨S_, .i32⟩
  | .hbm, ⟨15, _⟩ => ⟨S_, .i32⟩
  | .hbm, ⟨16, _⟩ => ⟨S601600, .i32⟩
  | .hbm, ⟨17, _⟩ => ⟨S601600x1, .i32⟩
  | .hbm, ⟨18, _⟩ => ⟨S1x601600, .i32⟩
  | .hbm, ⟨19, _⟩ => ⟨S50000x128, .bf16⟩
  | .hbm, ⟨20, _⟩ => ⟨S601600x128, .bf16⟩
  | .hbm, ⟨21, _⟩ => ⟨S50000x128, .f32⟩
  | .hbm, ⟨22, _⟩ => ⟨S50000x128, .f32⟩
  | .hbm, ⟨23, _⟩ => ⟨S50000x128, .bf16⟩
  | .hbm, ⟨24, _⟩ => ⟨S601600x128, .bf16⟩
  | .hbm, ⟨25, _⟩ => ⟨S50000x128, .f32⟩
  | .hbm, ⟨26, _⟩ => ⟨S50000x128, .f32⟩
  | .local _ .vmem, ⟨0, _⟩ => ⟨S6400x1, .i32⟩
  | .local _ .vmem, ⟨1, _⟩ => ⟨S6400x1, .i32⟩
  | .local _ .vmem, ⟨2, _⟩ => ⟨S2000x128, .bf16⟩
  | .local _ .vmem, ⟨3, _⟩ => ⟨S2000x128, .bf16⟩
  | .local _ .vmem, ⟨4, _⟩ => ⟨S6400x128, .bf16⟩
  | .local _ .vmem, ⟨5, _⟩ => ⟨S6400x128, .bf16⟩
  | .local _ .vmem, ⟨6, _⟩ => ⟨S6400x128, .f32⟩
  | .local _ .vmem, ⟨7, _⟩ => ⟨S1x6400, .i32⟩
  | .local _ .vmem, ⟨8, _⟩ => ⟨S1x6400, .i32⟩
  | .local _ .vmem, ⟨9, _⟩ => ⟨S6400x128, .bf16⟩
  | .local _ .vmem, ⟨10, _⟩ => ⟨S6400x128, .bf16⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S6400x1, .i32⟩
  | .local _ .vmem, ⟨25, _⟩ => ⟨S6400x1, .i32⟩
  | .local _ .vmem, ⟨26, _⟩ => ⟨S2000x128, .bf16⟩
  | .local _ .vmem, ⟨27, _⟩ => ⟨S2000x128, .bf16⟩
  | .local _ .vmem, ⟨28, _⟩ => ⟨S6400x128, .bf16⟩
  | .local _ .vmem, ⟨29, _⟩ => ⟨S6400x128, .bf16⟩
  | .local _ .vmem, ⟨30, _⟩ => ⟨S6400x128, .f32⟩
  | .local _ .vmem, ⟨31, _⟩ => ⟨S1x6400, .i32⟩
  | .local _ .vmem, ⟨32, _⟩ => ⟨S1x6400, .i32⟩
  | .local _ .vmem, ⟨33, _⟩ => ⟨S6400x128, .bf16⟩
  | .local _ .vmem, ⟨34, _⟩ => ⟨S6400x128, .bf16⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_c_0 : Ref sig .tc := ⟨.hbm, 14, rfl⟩
abbrev main_call1_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_scratch0 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43

abbrev nD : Nat := 1
abbrev τ : Topo := Topo.v7x

variable {F : FTy → Type} [FloatOps F]

abbrev grid0 : Pipeline.Grid := ⟨2, ![94, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S6400x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 94], ![false, false]⟩

def k1_cond2 (i : grid1.Coords) : BitVec 1 :=
  let arg1 : BitVec 32 := BitVec.ofNat 32 (i 1).val
  let c93_i32 : BitVec 32 := 93#32
  let v23 : BitVec 1 := Scalar.cmpi .eq arg1 c93_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x6400 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S6400x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![94, 25], ![false, false]⟩

def k3_cond2 (i : grid3.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S6400x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S6400x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![25, 94], ![false, false]⟩

def k4_cond2 (i : grid4.Coords) : BitVec 1 :=
  let arg1 : BitVec 32 := BitVec.ofNat 32 (i 1).val
  let c93_i32 : BitVec 32 := 93#32
  let v23 : BitVec 1 := Scalar.cmpi .eq arg1 c93_i32
  let v24 : BitVec 32 := Scalar.extui v23
  let c0_i32_8 : BitVec 32 := 0#32
  let v25 : BitVec 1 := Scalar.cmpi .ne v24 c0_i32_8
  v25

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x6400 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S6400x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  pads_S600000_S601600_016000 : S600000.Pads (![0] : Fin 1 → Nat) ![1600] ![0] S601600
  h_S_ : 0 < S_.numel
  shapeCasts_S601600_S601600x1 : S601600.ShapeCasts S601600x1
  shapeCasts_S601600_S1x601600 : S601600.ShapeCasts S1x601600
  bitsLt_bf16_f32 : FTy.bits .bf16 < FTy.bits .f32
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  iota_S1x2000_d1_w32 : S1x2000.Iotas .tc 32 [1]
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x2000 : S6400x1.Broadcasts S6400x2000
  broadcasts_S1x2000_S6400x2000 : S1x2000.Broadcasts S6400x2000
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  packedbf16_S6400x128_S6400x128_0_0 : (Rect.unit (s := S6400x128) ![0, 0] S6400x128.size inb_S6400x128_S6400x128_0_0).PackedRows (EltTy.packing .bf16)
  iota_S2000x1_d0_w32 : S2000x1.Iotas .tc 32 [0]
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S2000x1_S2000x6400 : S2000x1.Broadcasts S2000x6400
  broadcasts_S1x6400_S2000x6400 : S1x6400.Broadcasts S2000x6400
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  dot_S6400x2000_S2000x128_S6400x128_1_0_0_1_n_n_wf : DotDims.WF S6400x2000 S2000x128 S6400x128 [1] [0] [0] [1] [] []
  dot_S2000x6400_S6400x128_S2000x128_1_0_0_1_n_n_wf : DotDims.WF S2000x6400 S6400x128 S2000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x1.size a ≤ S601600x1.size a
  hwx0_0 : ∀ i : grid0.Coords, EltTy.bits .i32 = 32 ∨ (Rect.block (s := S601600x1) S6400x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S601600x128.size a
  hwx0_2 : ∀ i : grid0.Coords, EltTy.bits .bf16 = 32 ∨ (Rect.block (s := S601600x128) S6400x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x6400.size a ≤ S1x601600.size a
  hwx1_0 : ∀ i : grid1.Coords, EltTy.bits .i32 = 32 ∨ (Rect.block (s := S1x601600) S1x6400.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S601600x128.size a
  hwx1_1 : ∀ i : grid1.Coords, EltTy.bits .bf16 = 32 ∨ (Rect.block (s := S601600x128) S6400x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x1.size a ≤ S601600x1.size a
  hwx3_0 : ∀ i : grid3.Coords, EltTy.bits .i32 = 32 ∨ (Rect.block (s := S601600x1) S6400x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x128.size a ≤ S601600x128.size a
  hwx3_2 : ∀ i : grid3.Coords, EltTy.bits .bf16 = 32 ∨ (Rect.block (s := S601600x128) S6400x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x6400.size a ≤ S1x601600.size a
  hwx4_0 : ∀ i : grid4.Coords, EltTy.bits .i32 = 32 ∨ (Rect.block (s := S1x601600) S1x6400.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x128.size a ≤ S601600x128.size a
  hwx4_1 : ∀ i : grid4.Coords, EltTy.bits .bf16 = 32 ∨ (Rect.block (s := S601600x128) S6400x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def dot_S6400x2000_S2000x128_S6400x128_1_0_0_1_n_n : DotDims S6400x2000 S2000x128 S6400x128 where
  lhsContracting := [1]
  rhsContracting := [0]
  lhsNonContracting := [0]
  rhsNonContracting := [1]
  lhsBatch := []
  rhsBatch := []
  wf := dot_S6400x2000_S2000x128_S6400x128_1_0_0_1_n_n_wf
def dot_S2000x6400_S6400x128_S2000x128_1_0_0_1_n_n : DotDims S2000x6400 S6400x128 S2000x128 where
  lhsContracting := [1]
  rhsContracting := [0]
  lhsNonContracting := [0]
  rhsNonContracting := [1]
  lhsBatch := []
  rhsBatch := []
  wf := dot_S2000x6400_S6400x128_S2000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v2) S6400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v2) S6400x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S6400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v3) S1x6400.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S6400x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v7) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg8) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg9) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg10) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v11) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S_, .i32⟩
  | .hbm, ⟨12, _⟩ => ⟨S600000, .i32⟩
  | .hbm, ⟨13, _⟩ => ⟨S600000, .i1⟩
  | .hbm, ⟨14, _⟩ => ⟨S_, .i32⟩
  | .hbm, ⟨15, _⟩ => ⟨S600000, .i32⟩
  | .hbm, ⟨16, _⟩ => ⟨S600000, .i32⟩
  | .hbm, ⟨17, _⟩ => ⟨S600000, .i32⟩
  | .hbm, ⟨18, _⟩ => ⟨S600000x1, .i32⟩
  | .hbm, ⟨19, _⟩ => ⟨S600000x128, .f32⟩
  | .hbm, ⟨20, _⟩ => ⟨S_, .f32⟩
  | .hbm, ⟨21, _⟩ => ⟨S50000x128, .f32⟩
  | .hbm, ⟨22, _⟩ => ⟨S600000x1, .i32⟩
  | .hbm, ⟨23, _⟩ => ⟨S50000x128, .f32⟩
  | .hbm, ⟨24, _⟩ => ⟨S50000x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S600000, .i32⟩
  | .hbm, ⟨41, _⟩ => ⟨S600000, .i1⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S600000x1, .i32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_cst : Ref sig .tc := ⟨.hbm, 36, rfl⟩
abbrev main_call1_v0 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KWRegion0.lean ====
import proofs.«431135_j8108898255053_1_alg».proof.Proof.Gen.Kernel.Launch
import proofs.«431135_j8108898255053_1_alg».proof.Proof.Gen.Kernel.Skeleton
import proofs.«431135_j8108898255053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idleAt0_2 : ∀ t : Fin cfg0.N, ¬ t.val % 25 = 24 → cfg0.idle 2 (grid0.coords t) = true :=
  (by decide +kernel : ∀ t : Fin grid0.N, ¬ t.val % 25 = 24 → idle0 2 (grid0.coords t) = true)

abbrev scM0_0 : Memref sig .tc .vmem S6400x128 .f32 := Memref.whole cc0_scratch0

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hz0 : (![0, 0] : Fin 2 → Nat) = fun _ => 0 := funext fun a => by fin_cases a <;> rfl

set_option maxHeartbeats 1000000 in
/-- The body as one triple: the point's product is added to the zero block where the first conditional holds, else to `xs`; where the second holds the output block is that sum in the output's format. -/
theorem sound_kernel0 (c : Dev nD) (E : Set ℕ) (i : grid0.Coords)
    (arg2 : Memref sig .tc .vmem S6400x1 .i32) (harg2 : arg2.IsWhole) (arg3 : Memref sig .tc .vmem S2000x128 .bf16) (harg3 : arg3.IsWhole)
    (arg4 : Memref sig .tc .vmem S6400x128 .bf16) (harg4 : arg4.IsWhole) (arg5 : Memref sig .tc .vmem S6400x128 .f32) (harg5 : arg5.IsWhole)
    (hc : cond0_0 i → ¬cond0_1 i)
    (x0 : Vec F S6400x1 .i32) (x1 : Vec F S2000x128 .bf16) (x2 : Vec F S6400x128 .bf16) (xs : Vec F S6400x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs
        ∗ (iprop(owns (c : Thread nD τ) arg2 fullShare x0 ∗ owns (c : Thread nD τ) arg3 fullShare x1
            ∗ owns (c : Thread nD τ) arg4 fullShare (if cond0_1 i then k0_pay3 (k0_pay2 i x0 x1 (if cond0_0 i then k0_pay1 else xs)) else x2)
            ∗ owns (c : Thread nD τ) arg5 fullShare (k0_pay2 i x0 x1 (if cond0_0 i then k0_pay1 else xs))) -∗ K ⟨⟩))
      ⊢ wp frame (wpE (defs₀ (F := F)) Variants.none c none) E (cc0__gather_kernel i arg2 harg2 arg3 harg3 arg4 harg4 arg5 harg5) K := by
  by_cases hc0 : cond0_0 i <;> by_cases hc1 : cond0_1 i
  · exact absurd hc1 (hc hc0)
  all_goals
    first | rw [if_pos hc0] | rw [if_neg hc0]
    first | rw [if_pos hc1] | rw [if_neg hc1]
    simp only [cc0__gather_kernel_eq_skeleton]; unfold cc0__gather_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | exact hc0 | exact hc1)
    sl_step
    iapply Hk
    isplitl [H0]; rotate_left; isplitl [H1]; rotate_left; isplitl [H2]
    all_goals
      iexists _; isplitr
      swap; · first | iexact H0 | iexact H1 | iexact H2 | iexact HS
      ipureintro
      first
      | with_reducible rfl
      | (try sl_unfold_words
         refine (View.read_writes_eq_canon _ _ _ fun y => ⟨_, List.mem_cons_self, View.mem_set_unit_zero hz0 inb_S6400x128_S6400x128_0_0 y⟩).trans ?_
         simp only [View.canon_cons_unit_zero (S := S6400x128) hz0, View.readCov_unit_zero (S := S6400x128) _ hz0, View.readAt_eq_ld,
           View.ld_unit_zero (S := S6400x1) hz0, View.ld_unit_zero (S := S2000x128) hz0, View.ld_unit_zero (S := S6400x128) hz0])

noncomputable def acc0 (c : Dev nD) : (n : ℕ) → n < cfg0.N → Vec F S6400x128 .f32
  | 0, hn => k0_pay2 (grid0.coords ⟨0, hn⟩) (iblk0 V c 0 ⟨0, hn⟩) (iblk0 V c 1 ⟨0, hn⟩) k0_pay1
  | n + 1, hn => k0_pay2 (grid0.coords ⟨n + 1, hn⟩) (iblk0 V c 0 ⟨n + 1, hn⟩) (iblk0 V c 1 ⟨n + 1, hn⟩)
      (if (n + 1) % 25 = 0 then k0_pay1 else acc0 c n (Nat.lt_of_succ_lt hn))
theorem acc0_first (c : Dev nD) (t : Fin cfg0.N) (h0 : t.val % 25 = 0) :
    acc0 V c t.val t.isLt = k0_pay2 (grid0.coords t) (iblk0 V c 0 t) (iblk0 V c 1 t) k0_pay1 := by
  obtain ⟨n, hn⟩ := t
  cases n with
  | zero => exact rfl
  | succ n => exact congrArg (k0_pay2 _ _ _) (if_pos h0)
theorem acc0_next (c : Dev nD) (t : Fin cfg0.N) (h0 : ¬t.val % 25 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact congrArg (k0_pay2 _ _ _) (if_neg h0)

/-- The invariant before position `n`: the accumulator at some contents, those of `acc0` at `n - 1` unless a run of 25 starts at `n`. -/
noncomputable def PhiS0 (c : Dev nD) (n : ℕ) (_ : n ≤ cfg0.N) : sProp 𝕄 :=
  iprop(iprop((∃ d, ⌜¬n % 25 = 0 → ∃ h, d = acc0 V c (n - 1) h⌝ ∗ owns (c : Thread nD τ) scM0_0 fullShare d)
      ∗ Pipeline.scopedRestBut (Ix := Unit) (Name := ℕ) (U := UR sig nD τ) (Lvl := ℕ) (Val := Elt F) spec0 c [cc0_scratch0]) ∗ (∃ r, prngReg c r))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = k0_pay3 (acc0 V c t.val t.isLt) := by dsimp only [dat0]

theorem before0 (c : Dev nD) (t : Fin cfg0.N) :
    (∀ d, (dat0 V c).before 0 t d = iblk0 V c 0 t) ∧ ∀ d, (dat0 V c).before 1 t d = iblk0 V c 1 t := by
  constructor <;> exact fun d => (Dat.before_in_eq_fetched _ _ rfl (fun _ => rfl) (fun _ _ _ => rfl) (fun _ => rfl) t d).trans rfl

theorem body_obligation0 (c : Dev nD) : BodyObligation (dat0 (F := F) V c) (defs₀ (F := F)) Variants.none () Set.univ := fun t => by
  have h2 (d) : owns (c : Thread nD τ) (st0_2 t) fullShare
      (if cond0_1 (grid0.coords t) then k0_pay3 (acc0 V c t.val t.isLt) else (dat0 V c).before 2 t d) ⊢ (dat0 V c).leavesExact 2 t := by
    by_cases h1 : t.val % 25 = 24
    · rw [if_pos ((hcond0_1 t).mpr h1)]; unfold Dat.leavesExact; rw [(flush0_2 t).2 h1]; cases cfg0.idle 2 (grid0.coords t) <;> exact .rfl
    · rw [if_neg (mt (hcond0_1 t).mp h1), Dat.leavesExact_idle _ 2 t (idleAt0_2 t h1) (Bool.eq_false_iff.2 (mt (flush0_2 t).1 h1))]
      iintro H; iexists d; iexact H
  rw [bigSep_W0, bigSep_W0]
  simp only [show ∀ s, (dat0 V c).Φ s = PhiS0 V c s.val (Nat.le_of_lt_succ s.isLt) from fun _ => rfl, (before0 V c t).1, (before0 V c t).2]
  change _ ⊢ wp frame _ _ (bodyAt0 t) _
  unfold PhiS0 bodyAt0
  iintro ⟨⟨⟨⟨%xs, %hxs, HS⟩, HR⟩, Hg⟩, Ho, ⟨%d0, H0⟩, ⟨%d1, H1⟩, ⟨%d2, H2⟩⟩
  have hacc : k0_pay2 (grid0.coords t) (iblk0 V c 0 t) (iblk0 V c 1 t) (if cond0_0 (grid0.coords t) then k0_pay1 else xs)
      = acc0 V c t.val t.isLt := by
    by_cases h0 : t.val % 25 = 0
    · rw [if_pos ((hcond0_0 t).mpr h0), acc0_first V c t h0]
    · obtain ⟨h, rfl⟩ := hxs h0
      rw [if_neg (mt (hcond0_0 t).mp h0), acc0_next V c t h0]; rfl
  iapply (sound_kernel0 c Set.univ (grid0.coords t) _ _ _ _ _ _ _ _
    (fun a b => by have := (hcond0_0 t).mp a; have := (hcond0_1 t).mp b; omega) (iblk0 V c 0 t) (iblk0 V c 1 t) _ xs _)
  iframe H0 H1 H2 HS
  iintro ⟨H0, H1, H2, HS⟩
  rw [hacc]
  isplitl [HS HR Hg]
  · iframe HR Hg; iexists _; isplitr
    swap; · iexact HS
    ipureintro; exact fun _ => ⟨t.isLt, rfl⟩
  isplitl [Ho]; · iexact Ho
  isplitl [H0]; · iexact H0
  isplitl [H1]; · iexact H1
  iapply h2 d2; iexact H2

theorem hin0 (c : Dev nD) : Pipeline.ΦA spec0 c ⊢ (dat0 V c).Φ 0 := by
  rw [PhiA0_eq, show (dat0 V c).Φ 0 = PhiS0 V c 0 (Nat.zero_le _) from rfl]; unfold PhiS0
  iintro ⟨⟨⟨%d, HS⟩, HR⟩, Hg⟩
  iframe HR Hg; iexists d; isplitr; · ipureintro; exact fun h => absurd rfl h
  iexact HS

theorem hout0 (c : Dev nD) : (dat0 V c).Φ (Fin.last cfg0.N) ⊢ Pipeline.ΦA spec0 c := by
  rw [PhiA0_eq, show (dat0 V c).Φ (Fin.last cfg0.N) = PhiS0 V c cfg0.N (Nat.le_refl _) from rfl]; unfold PhiS0
  iintro ⟨⟨⟨%d, -, HS⟩, HR⟩, Hg⟩
  iframe HR Hg; iexists d; iexact HS

end Cert.Kernel.Gen

end
-- ==== Proof.KWRegion1.lean ====
import proofs.«431135_j8108898255053_1_alg».proof.Proof.Gen.Kernel.Launch
import proofs.«431135_j8108898255053_1_alg».proof.Proof.Gen.Kernel.Skeleton
import proofs.«431135_j8108898255053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 94 = 0 :=
  (by decide +kernel : ∀ t : Fin grid1.N, cond1_0 (grid1.coords t) ↔ t.val % 94 = 0)

abbrev cond1_1 (i : grid1.Coords) : Prop := k1_cond2 i = 1#1
theorem hcond1_1 : ∀ t : Fin cfg1.N, cond1_1 (grid1.coords t) ↔ t.val % 94 = 93 :=
  (by decide +kernel : ∀ t : Fin grid1.N, cond1_1 (grid1.coords t) ↔ t.val % 94 = 93)

theorem idleAt1_2 : ∀ t : Fin cfg1.N, ¬cond1_1 (grid1.coords t) → cfg1.idle 2 (grid1.coords t) = true :=
  (by decide +kernel : ∀ t : Fin grid1.N, ¬cond1_1 (grid1.coords t) → idle1 2 (grid1.coords t) = true)
theorem noFlush1_2 : ∀ t : Fin cfg1.N, ¬cond1_1 (grid1.coords t) → (cfg1.win 2).flush t = false :=
  (by decide +kernel : ∀ t : Fin grid1.N, ¬cond1_1 (grid1.coords t) → win1_2.flush t = false)
theorem liveAt1_2 : ∀ t : Fin cfg1.N, cond1_1 (grid1.coords t) → cfg1.idle 2 (grid1.coords t) = false :=
  (by decide +kernel : ∀ t : Fin grid1.N, cond1_1 (grid1.coords t) → idle1 2 (grid1.coords t) = false)

abbrev scM1_0 : Memref sig .tc .vmem S2000x128 .f32 := Memref.whole cc1_scratch0

noncomputable def inv1 (c : Dev nD) (S : sProp 𝕄) : sProp 𝕄 :=
  iprop(iprop(S ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄) = inv1 c iprop(∃ d, owns (c : Thread nD τ) scM1_0 fullShare d) := by
  unfold Pipeline.ΦA; rw [scopedRest1_split]; simp only [scM1_0, owns_whole]; try rfl

theorem zero1 : (![0, 0] : Fin 2 → ℕ) = fun _ => 0 := funext fun a => by fin_cases a <;> rfl

theorem cover1 (p : Vec F S2000x128 .f32) (L : List (View.Piece (Elt F) S2000x128 .f32)) (y : S2000x128.Idx) :
    ∃ pc ∈ ((⟨Rect.unit (s := S2000x128) ![0, 0] S2000x128.size inb_S2000x128_S2000x128_0_0, p⟩ : View.Piece (Elt F) S2000x128 .f32) :: L),
      y ∈ pc.1.set :=
  ⟨_, List.mem_cons_self .., View.mem_set_unit_zero zero1 inb_S2000x128_S2000x128_0_0 y⟩

-- One step of the accumulation: it restarts from zero at the first point of a run, this point's one-hot product is added, and at the last point of a run the sum is also written out.
theorem kernel1 (c : Dev nD) (E : Set ℕ) (t : Fin cfg1.N)
    (arg2 : Memref sig .tc .vmem S1x6400 .i32) (harg2 : arg2.IsWhole) (arg3 : Memref sig .tc .vmem S6400x128 .bf16) (harg3 : arg3.IsWhole)
    (arg4 : Memref sig .tc .vmem S2000x128 .f32) (harg4 : arg4.IsWhole) (arg5 : Memref sig .tc .vmem S2000x128 .f32) (harg5 : arg5.IsWhole)
    (x0 : Vec F S1x6400 .i32) (x1 : Vec F S6400x128 .bf16) (y xs : Vec F S2000x128 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare xs
        ∗ (iprop(owns (c : Thread nD τ) arg2 fullShare x0 ∗ owns (c : Thread nD τ) arg3 fullShare x1
            ∗ owns (c : Thread nD τ) arg4 fullShare
              (if t.val % 94 = 93 then k1_pay2 (grid1.coords t) x0 x1 (if t.val % 94 = 0 then k1_pay1 else xs) else y)
            ∗ owns (c : Thread nD τ) arg5 fullShare (k1_pay2 (grid1.coords t) x0 x1 (if t.val % 94 = 0 then k1_pay1 else xs))) -∗ K ⟨⟩))
      ⊢ wp frame (wpE (defs₀ (F := F)) Variants.none c none) E
          (cc1__scatter_kernel (grid1.coords t) arg2 harg2 arg3 harg3 arg4 harg4 arg5 harg5) K := by
  by_cases h0 : t.val % 94 = 0 <;> by_cases h1 : t.val % 94 = 93
  · omega
  all_goals
    first | rw [if_pos h0] | rw [if_neg h0]
    first | rw [if_pos h1] | rw [if_neg h1]
    simp only [cc1__scatter_kernel_eq_skeleton]
    unfold cc1__scatter_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | sl_exact (hcond1_0 t).mpr h0 | sl_exact (hcond1_0 t).not.mpr h0 | sl_exact (hcond1_1 t).mpr h1 | sl_exact (hcond1_1 t).not.mpr h1)
    sl_step
    iapply Hk
    isplitl [H0]; swap; isplitl [H1]; swap; isplitl [H2]
    all_goals
      iexists _; isplitr; swap; · iassumption
      ipureintro
      first
      | with_reducible rfl
      | try sl_unfold_words
        rw [View.read_writes_eq_canon _ _ _ (cover1 _ _), View.canon_cons_unit_zero (Val := Elt F) (S := S2000x128) zero1]
        simp only [View.readCov_unit_zero (Val := Elt F) (S := S2000x128) _ zero1, View.readAt_eq_ld, View.ld_unit_zero (S := S1x6400) zero1,
          View.ld_unit_zero (S := S6400x128) zero1, View.ld_unit_zero (S := S2000x128) zero1]

noncomputable def acc1 (c : Dev nD) : (n : ℕ) → n < cfg1.N → Vec F S2000x128 .f32
  | 0, hn => k1_pay2 (grid1.coords ⟨0, hn⟩) (iblk1 V c 0 ⟨0, hn⟩) (iblk1 V c 1 ⟨0, hn⟩) k1_pay1
  | n + 1, hn => k1_pay2 (grid1.coords ⟨n + 1, hn⟩) (iblk1 V c 0 ⟨n + 1, hn⟩) (iblk1 V c 1 ⟨n + 1, hn⟩)
      (if (n + 1) % 94 = 0 then k1_pay1 else acc1 c n (Nat.lt_of_succ_lt hn))

theorem acc1_first (c : Dev nD) (t : Fin cfg1.N) (h0 : t.val % 94 = 0) :
    acc1 V c t.val t.isLt = k1_pay2 (grid1.coords t) (iblk1 V c 0 t) (iblk1 V c 1 t) k1_pay1 := by
  obtain ⟨_ | n, hn⟩ := t
  · rfl
  · exact congrArg (k1_pay2 _ _ _) (if_pos h0)

theorem acc1_next (c : Dev nD) (t : Fin cfg1.N) (h0 : ¬t.val % 94 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨_ | n, hn⟩ := t
  · exact absurd (Nat.zero_mod _) h0
  · exact congrArg (k1_pay2 _ _ _) (if_neg h0)

-- Before point n the accumulator holds what point n - 1 left; before the first point it may hold anything.
noncomputable def PhiS1 (c : Dev nD) (n : ℕ) (h : n ≤ cfg1.N) : sProp 𝕄 :=
  inv1 c iprop(∃ xs, ⌜∀ hn : n ≠ 0, xs = acc1 V c (n - 1) (by omega)⌝ ∗ owns (c : Thread nD τ) scM1_0 fullShare xs)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = acc1 V c t.val t.isLt := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

-- Each point takes the invariant before it to the invariant after it and leaves every block as the proof data say.
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) fun _ =>
      iprop((dat1 V c).Φ t.succ ∗ (dat1 V c).owesAt () t.succ
        ∗ (dat1 V c).leavesExact 0 t ∗ (dat1 V c).leavesExact 1 t ∗ (dat1 V c).leavesExact 2 t) := by
  simp only [before1_0, before1_1]
  have ha : ∀ xs, (∀ hn : t.val ≠ 0, xs = acc1 V c (t.val - 1) (by omega)) →
      k1_pay2 (grid1.coords t) (iblk1 V c 0 t) (iblk1 V c 1 t) (if t.val % 94 = 0 then k1_pay1 else xs)
        = acc1 V c t.val t.isLt := fun xs hx => by
    by_cases h0 : t.val % 94 = 0
    · rw [if_pos h0, acc1_first V c t h0]
    · rw [if_neg h0, acc1_next V c t h0, hx fun e => h0 (by rw [e])]
  have hL : ∀ d, owns (c : Thread nD τ) (st1_2 t) fullShare
      (if t.val % 94 = 93 then acc1 V c t.val t.isLt else (dat1 V c).before 2 t d) ⊢ (dat1 V c).leavesExact 2 t := fun d => by
    by_cases h1 : t.val % 94 = 93
    · rw [if_pos h1]; unfold Dat.leavesExact; rw [liveAt1_2 t ((hcond1_1 t).mpr h1)]; exact .rfl
    · have hc := (hcond1_1 t).not.mpr h1
      rw [if_neg h1, Dat.leavesExact_idle _ 2 t (idleAt1_2 t hc) (noFlush1_2 t hc)]; iintro H; iexists d; iexact H
  rw [show (dat1 V c).Φ t.castSucc = PhiS1 V c t.val (Nat.le_of_lt t.isLt) from rfl,
    show (dat1 V c).Φ t.succ = PhiS1 V c (t.val + 1) t.isLt from rfl]
  unfold PhiS1 inv1
  iintro ⟨⟨⟨⟨%xs, %hx, HS⟩, HR⟩, Hg⟩, Ho, ⟨%d0, H0⟩, ⟨%d1, H1⟩, ⟨%d2, H2⟩⟩
  iapply (kernel1 c Set.univ t _ _ _ _ _ _ _ _ (iblk1 V c 0 t) (iblk1 V c 1 t) _ xs _)
  isplitl [H0]; · iexact H0
  isplitl [H1]; · iexact H1
  isplitl [H2]; · iexact H2
  isplitl [HS]; · iexact HS
  rw [ha xs hx]
  iintro ⟨H0, H1, H2, HS⟩
  iframe HR Hg
  isplitl [HS]
  · iexists _; isplitr; swap; · iexact HS
    ipureintro; exact fun _ => rfl
  isplitl [Ho]; · iexact Ho
  isplitl [H0]; · iexact H0
  isplitl [H1]; · iexact H1
  iapply (hL d2); iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; show _ ⊢ PhiS1 V c 0 (Nat.zero_le _); unfold PhiS1 inv1
  iintro ⟨⟨⟨%d, HS⟩, HR⟩, Hg⟩
  iframe HR Hg
  iexists d; isplitr; · ipureintro; exact fun h => absurd rfl h
  iexact HS

theorem hout1 (c : Dev nD) : (dat1 V c).Φ (Fin.last cfg1.N) ⊢ Pipeline.ΦA spec1 c := by
  rw [PhiA1_eq, show (dat1 V c).Φ (Fin.last cfg1.N) = PhiS1 V c _ (Fin.last cfg1.N).is_le from rfl]; unfold PhiS1 inv1
  iintro ⟨⟨⟨%xs, %_, HS⟩, HR⟩, Hg⟩
  iframe HR Hg
  iexists _; iexact HS

end Cert.Kernel.Gen

end
-- ==== Proof.KWRegion2.lean ====
import proofs.«431135_j8108898255053_1_alg».proof.Proof.Gen.Kernel.Launch
import proofs.«431135_j8108898255053_1_alg».proof.Proof.Gen.Kernel.Skeleton
import proofs.«431135_j8108898255053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0

noncomputable def out2_6 (x0 : Vec F S5000x128 .f32) (x1 : Vec F S5000x128 .f32) (x2 : Vec F S128x128 .f32) (x3 : Vec F S128 .f32)
    (x4 : Vec F S128x128 .f32) (x5 : Vec F S128 .f32) : Vec F S5000x128 .f32 :=
  View.canon [⟨r2_0, k2_pay1 (View.ld x0 r2_0) (View.ld x1 r2_0) (View.ld x2 r2_1) (View.ld x4 r2_1) (View.ld x3 r2_2) (View.ld x5 r2_2)⟩]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) : ∀ w : Fin cfg2.W, w ≠ 6 → ∀ d, (dat2 V c).before w t d = (dat2 V c).after w t
  | ⟨6, _⟩, h, _ => absurd rfl h
  | ⟨0, _⟩, _, d | ⟨1, _⟩, _, d | ⟨2, _⟩, _, d | ⟨3, _⟩, _, d | ⟨4, _⟩, _, d | ⟨5, _⟩, _, d =>
    ((dat2 V c).before_in_eq_fetched _ rfl (fun _ => rfl) (fun _ _ _ => rfl) (fun _ => by dsimp only [dat2]; rfl) t d).trans
      (by dsimp only [dat2]; unfold Dat.fetched Dat.blockOf iblk2; rfl)

theorem body_obligation2 (c : Dev nD) : BodyObligation (dat2 (F := F) V c) (defs₀ (F := F)) Variants.none () Set.univ := fun t => by
  rw [bigSep_W2, bigSep_W2]
  simp (disch := decide) only [before2 V c t]
  dsimp only [dat2, Dat.owesAt, Dat.bound]
  show _ ⊢ wp _ _ _ (bodyAt2 t) _
  unfold bodyAt2
  generalize iblk2 V c 0 t = x0, iblk2 V c 1 t = x1, iblk2 V c 2 t = x2, iblk2 V c 3 t = x3, iblk2 V c 4 t = x4, iblk2 V c 5 t = x5
  simp only [cc2__mlp_kernel_eq_skeleton]; unfold cc2__mlp_kernel_skel
  conv_lhs => unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩⟩
  subst hf0 hf1 hf2 hf3 hf4 hf5
  sl_exec
  sl_step
  iframe HΦ Ho
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  unfold owns
  iexists _; isplitr
  swap; · iexact H6
  ipureintro
  exact View.read_writes_eq_canon _ _ _ (View.cover_of_tiled _ S5000x128.size (by rfl))

theorem hin2 (c : Dev nD) : Pipeline.ΦA spec2 c ⊢ (dat2 V c).Φ 0 := Entails.refl _

theorem hout2 (c : Dev nD) : (dat2 V c).Φ (Fin.last cfg2.N) ⊢ Pipeline.ΦA spec2 c := Entails.refl _

end Cert.Kernel.Gen

end
-- ==== Proof.KWRegion3.lean ====
import proofs.«431135_j8108898255053_1_alg».proof.Proof.Gen.Kernel.Launch
import proofs.«431135_j8108898255053_1_alg».proof.Proof.Gen.Kernel.Skeleton
import proofs.«431135_j8108898255053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1
theorem hcond3_1 : ∀ t : Fin cfg3.N, cond3_1 (grid3.coords t) ↔ t.val % 25 = 24 :=
  (by decide +kernel : ∀ t : Fin grid3.N, cond3_1 (grid3.coords t) ↔ t.val % 25 = 24)

theorem idleAt3_2 : ∀ t : Fin cfg3.N, ¬ t.val % 25 = 24 → cfg3.idle 2 (grid3.coords t) = true :=
  (by decide +kernel : ∀ t : Fin grid3.N, ¬ t.val % 25 = 24 → idle3 2 (grid3.coords t) = true)

abbrev scM3_0 : Memref sig .tc .vmem S6400x128 .f32 := Memref.whole cc3_scratch0

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz3 : (![0, 0] : Fin 2 → Nat) = fun _ => 0 := funext fun a => by fin_cases a <;> rfl

set_option maxHeartbeats 1000000 in
/-- The body as one triple: the point's product is added to the zero block where the first conditional holds, else to `xs`; where the second holds the output block is that sum in the output's format. -/
theorem sound_kernel3 (c : Dev nD) (E : Set ℕ) (i : grid3.Coords)
    (arg2 : Memref sig .tc .vmem S6400x1 .i32) (harg2 : arg2.IsWhole) (arg3 : Memref sig .tc .vmem S2000x128 .bf16) (harg3 : arg3.IsWhole)
    (arg4 : Memref sig .tc .vmem S6400x128 .bf16) (harg4 : arg4.IsWhole) (arg5 : Memref sig .tc .vmem S6400x128 .f32) (harg5 : arg5.IsWhole)
    (hc : cond3_0 i → ¬cond3_1 i)
    (x0 : Vec F S6400x1 .i32) (x1 : Vec F S2000x128 .bf16) (x2 : Vec F S6400x128 .bf16) (xs : Vec F S6400x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs
        ∗ (iprop(owns (c : Thread nD τ) arg2 fullShare x0 ∗ owns (c : Thread nD τ) arg3 fullShare x1
            ∗ owns (c : Thread nD τ) arg4 fullShare (if cond3_1 i then k3_pay3 (k3_pay2 i x0 x1 (if cond3_0 i then k3_pay1 else xs)) else x2)
            ∗ owns (c : Thread nD τ) arg5 fullShare (k3_pay2 i x0 x1 (if cond3_0 i then k3_pay1 else xs))) -∗ K ⟨⟩))
      ⊢ wp frame (wpE (defs₀ (F := F)) Variants.none c none) E (cc3__gather_kernel i arg2 harg2 arg3 harg3 arg4 harg4 arg5 harg5) K := by
  by_cases hc0 : cond3_0 i <;> by_cases hc1 : cond3_1 i
  · exact absurd hc1 (hc hc0)
  all_goals
    first | rw [if_pos hc0] | rw [if_neg hc0]
    first | rw [if_pos hc1] | rw [if_neg hc1]
    simp only [cc3__gather_kernel_eq_skeleton]; unfold cc3__gather_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | exact hc0 | exact hc1)
    sl_step
    iapply Hk
    isplitl [H0]; rotate_left; isplitl [H1]; rotate_left; isplitl [H2]
    all_goals
      iexists _; isplitr
      swap; · first | iexact H0 | iexact H1 | iexact H2 | iexact HS
      ipureintro
      first
      | with_reducible rfl
      | (try sl_unfold_words
         refine (View.read_writes_eq_canon _ _ _ fun y => ⟨_, List.mem_cons_self, View.mem_set_unit_zero hz3 inb_S6400x128_S6400x128_0_0 y⟩).trans ?_
         simp only [View.canon_cons_unit_zero (S := S6400x128) hz3, View.readCov_unit_zero (S := S6400x128) _ hz3, View.readAt_eq_ld,
           View.ld_unit_zero (S := S6400x1) hz3, View.ld_unit_zero (S := S2000x128) hz3, View.ld_unit_zero (S := S6400x128) hz3])

noncomputable def acc3 (c : Dev nD) : (n : ℕ) → n < cfg3.N → Vec F S6400x128 .f32
  | 0, hn => k3_pay2 (grid3.coords ⟨0, hn⟩) (iblk3 V c 0 ⟨0, hn⟩) (iblk3 V c 1 ⟨0, hn⟩) k3_pay1
  | n + 1, hn => k3_pay2 (grid3.coords ⟨n + 1, hn⟩) (iblk3 V c 0 ⟨n + 1, hn⟩) (iblk3 V c 1 ⟨n + 1, hn⟩)
      (if (n + 1) % 25 = 0 then k3_pay1 else acc3 c n (Nat.lt_of_succ_lt hn))
theorem acc3_first (c : Dev nD) (t : Fin cfg3.N) (h0 : t.val % 25 = 0) :
    acc3 V c t.val t.isLt = k3_pay2 (grid3.coords t) (iblk3 V c 0 t) (iblk3 V c 1 t) k3_pay1 := by
  obtain ⟨n, hn⟩ := t
  cases n with
  | zero => exact rfl
  | succ n => exact congrArg (k3_pay2 _ _ _) (if_pos h0)
theorem acc3_next (c : Dev nD) (t : Fin cfg3.N) (h0 : ¬t.val % 25 = 0) :
    acc3 V c t.val t.isLt = k3_pay2 (grid3.coords t) (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h0
  | succ n => exact congrArg (k3_pay2 _ _ _) (if_neg h0)

/-- The invariant before position `n`: the accumulator at some contents, those of `acc3` at `n - 1` unless a run of 25 starts at `n`. -/
noncomputable def PhiS3 (c : Dev nD) (n : ℕ) (_ : n ≤ cfg3.N) : sProp 𝕄 :=
  iprop(iprop((∃ d, ⌜¬n % 25 = 0 → ∃ h, d = acc3 V c (n - 1) h⌝ ∗ owns (c : Thread nD τ) scM3_0 fullShare d)
      ∗ Pipeline.scopedRestBut (Ix := Unit) (Name := ℕ) (U := UR sig nD τ) (Lvl := ℕ) (Val := Elt F) spec3 c [cc3_scratch0]) ∗ (∃ r, prngReg c r))

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = k3_pay3 (acc3 V c t.val t.isLt) := by dsimp only [dat3]

theorem before3 (c : Dev nD) (t : Fin cfg3.N) :
    (∀ d, (dat3 V c).before 0 t d = iblk3 V c 0 t) ∧ ∀ d, (dat3 V c).before 1 t d = iblk3 V c 1 t := by
  constructor <;> exact fun d => (Dat.before_in_eq_fetched _ _ rfl (fun _ => rfl) (fun _ _ _ => rfl) (fun _ => rfl) t d).trans rfl

theorem body_obligation3 (c : Dev nD) : BodyObligation (dat3 (F := F) V c) (defs₀ (F := F)) Variants.none () Set.univ := fun t => by
  have h2 (d) : owns (c : Thread nD τ) (st3_2 t) fullShare
      (if cond3_1 (grid3.coords t) then k3_pay3 (acc3 V c t.val t.isLt) else (dat3 V c).before 2 t d) ⊢ (dat3 V c).leavesExact 2 t := by
    by_cases h1 : t.val % 25 = 24
    · rw [if_pos ((hcond3_1 t).mpr h1)]; unfold Dat.leavesExact; rw [(flush3_2 t).2 h1]; cases cfg3.idle 2 (grid3.coords t) <;> exact .rfl
    · rw [if_neg (mt (hcond3_1 t).mp h1), Dat.leavesExact_idle _ 2 t (idleAt3_2 t h1) (Bool.eq_false_iff.2 (mt (flush3_2 t).1 h1))]
      iintro H; iexists d; iexact H
  rw [bigSep_W3, bigSep_W3]
  simp only [show ∀ s, (dat3 V c).Φ s = PhiS3 V c s.val (Nat.le_of_lt_succ s.isLt) from fun _ => rfl, (before3 V c t).1, (before3 V c t).2]
  change _ ⊢ wp frame _ _ (bodyAt3 t) _
  unfold PhiS3 bodyAt3
  iintro ⟨⟨⟨⟨%xs, %hxs, HS⟩, HR⟩, Hg⟩, Ho, ⟨%d0, H0⟩, ⟨%d1, H1⟩, ⟨%d2, H2⟩⟩
  have hacc : k3_pay2 (grid3.coords t) (iblk3 V c 0 t) (iblk3 V c 1 t) (if cond3_0 (grid3.coords t) then k3_pay1 else xs)
      = acc3 V c t.val t.isLt := by
    by_cases h0 : t.val % 25 = 0
    · rw [if_pos ((hcond3_0 t).mpr h0), acc3_first V c t h0]
    · obtain ⟨h, rfl⟩ := hxs h0
      rw [if_neg (mt (hcond3_0 t).mp h0), acc3_next V c t h0]; rfl
  iapply (sound_kernel3 c Set.univ (grid3.coords t) _ _ _ _ _ _ _ _
    (fun a b => by have := (hcond3_0 t).mp a; have := (hcond3_1 t).mp b; omega) (iblk3 V c 0 t) (iblk3 V c 1 t) _ xs _)
  iframe H0 H1 H2 HS
  iintro ⟨H0, H1, H2, HS⟩
  rw [hacc]
  isplitl [HS HR Hg]
  · iframe HR Hg; iexists _; isplitr
    swap; · iexact HS
    ipureintro; exact fun _ => ⟨t.isLt, rfl⟩
  isplitl [Ho]; · iexact Ho
  isplitl [H0]; · iexact H0
  isplitl [H1]; · iexact H1
  iapply h2 d2; iexact H2

theorem hin3 (c : Dev nD) : Pipeline.ΦA spec3 c ⊢ (dat3 V c).Φ 0 := by
  rw [PhiA3_eq, show (dat3 V c).Φ 0 = PhiS3 V c 0 (Nat.zero_le _) from rfl]; unfold PhiS3
  iintro ⟨⟨⟨%d, HS⟩, HR⟩, Hg⟩
  iframe HR Hg; iexists d; isplitr; · ipureintro; exact fun h => absurd rfl h
  iexact HS

theorem hout3 (c : Dev nD) : (dat3 V c).Φ (Fin.last cfg3.N) ⊢ Pipeline.ΦA spec3 c := by
  rw [PhiA3_eq, show (dat3 V c).Φ (Fin.last cfg3.N) = PhiS3 V c cfg3.N (Nat.le_refl _) from rfl]; unfold PhiS3
  iintro ⟨⟨⟨%d, -, HS⟩, HR⟩, Hg⟩
  iframe HR Hg; iexists d; iexact HS

end Cert.Kernel.Gen

end
-- ==== Proof.KWRegion4.lean ====
import proofs.«431135_j8108898255053_1_alg».proof.Proof.Gen.Kernel.Launch
import proofs.«431135_j8108898255053_1_alg».proof.Proof.Gen.Kernel.Skeleton
import proofs.«431135_j8108898255053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 94 = 0 :=
  (by decide +kernel : ∀ t : Fin grid4.N, cond4_0 (grid4.coords t) ↔ t.val % 94 = 0)

abbrev cond4_1 (i : grid4.Coords) : Prop := k4_cond2 i = 1#1
theorem hcond4_1 : ∀ t : Fin cfg4.N, cond4_1 (grid4.coords t) ↔ t.val % 94 = 93 :=
  (by decide +kernel : ∀ t : Fin grid4.N, cond4_1 (grid4.coords t) ↔ t.val % 94 = 93)

theorem idleAt4_2 : ∀ t : Fin cfg4.N, ¬cond4_1 (grid4.coords t) → cfg4.idle 2 (grid4.coords t) = true :=
  (by decide +kernel : ∀ t : Fin grid4.N, ¬cond4_1 (grid4.coords t) → idle4 2 (grid4.coords t) = true)
theorem noFlush4_2 : ∀ t : Fin cfg4.N, ¬cond4_1 (grid4.coords t) → (cfg4.win 2).flush t = false :=
  (by decide +kernel : ∀ t : Fin grid4.N, ¬cond4_1 (grid4.coords t) → win4_2.flush t = false)
theorem liveAt4_2 : ∀ t : Fin cfg4.N, cond4_1 (grid4.coords t) → cfg4.idle 2 (grid4.coords t) = false :=
  (by decide +kernel : ∀ t : Fin grid4.N, cond4_1 (grid4.coords t) → idle4 2 (grid4.coords t) = false)

abbrev scM4_0 : Memref sig .tc .vmem S2000x128 .f32 := Memref.whole cc4_scratch0

noncomputable def inv4 (c : Dev nD) (S : sProp 𝕄) : sProp 𝕄 :=
  iprop(iprop(S ∗ Pipeline.scopedRestBut (Ix := Unit) (Name := ℕ) (U := UR sig nD τ) (Lvl := ℕ) (Val := Elt F) spec4 c [cc4_scratch0]) ∗ (∃ r, prngReg c r))

theorem PhiA4_eq (c : Dev nD) :
    (Pipeline.ΦA spec4 c : sProp 𝕄) = inv4 c iprop(∃ d, owns (c : Thread nD τ) scM4_0 fullShare d) := by
  unfold Pipeline.ΦA; rw [scopedRest4_split]; simp only [scM4_0, owns_whole]; try rfl

theorem zero4 : (![0, 0] : Fin 2 → ℕ) = fun _ => 0 := funext fun a => by fin_cases a <;> rfl

theorem cover4 (p : Vec F S2000x128 .f32) (L : List (View.Piece (Elt F) S2000x128 .f32)) (y : S2000x128.Idx) :
    ∃ pc ∈ ((⟨Rect.unit (s := S2000x128) ![0, 0] S2000x128.size inb_S2000x128_S2000x128_0_0, p⟩ : View.Piece (Elt F) S2000x128 .f32) :: L),
      y ∈ pc.1.set :=
  ⟨_, List.mem_cons_self .., View.mem_set_unit_zero zero4 inb_S2000x128_S2000x128_0_0 y⟩

-- One step of the accumulation: it restarts from zero at the first point of a run, this point's one-hot product is added, and at the last point of a run the sum is also written out.
theorem kernel4 (c : Dev nD) (E : Set ℕ) (t : Fin cfg4.N)
    (arg2 : Memref sig .tc .vmem S1x6400 .i32) (harg2 : arg2.IsWhole) (arg3 : Memref sig .tc .vmem S6400x128 .bf16) (harg3 : arg3.IsWhole)
    (arg4 : Memref sig .tc .vmem S2000x128 .f32) (harg4 : arg4.IsWhole) (arg5 : Memref sig .tc .vmem S2000x128 .f32) (harg5 : arg5.IsWhole)
    (x0 : Vec F S1x6400 .i32) (x1 : Vec F S6400x128 .bf16) (y xs : Vec F S2000x128 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare xs
        ∗ (iprop(owns (c : Thread nD τ) arg2 fullShare x0 ∗ owns (c : Thread nD τ) arg3 fullShare x1
            ∗ owns (c : Thread nD τ) arg4 fullShare
              (if t.val % 94 = 93 then k4_pay2 (grid4.coords t) x0 x1 (if t.val % 94 = 0 then k4_pay1 else xs) else y)
            ∗ owns (c : Thread nD τ) arg5 fullShare (k4_pay2 (grid4.coords t) x0 x1 (if t.val % 94 = 0 then k4_pay1 else xs))) -∗ K ⟨⟩))
      ⊢ wp frame (wpE (defs₀ (F := F)) Variants.none c none) E
          (cc4__scatter_kernel (grid4.coords t) arg2 harg2 arg3 harg3 arg4 harg4 arg5 harg5) K := by
  by_cases h0 : t.val % 94 = 0 <;> by_cases h1 : t.val % 94 = 93
  · omega
  all_goals
    first | rw [if_pos h0] | rw [if_neg h0]
    first | rw [if_pos h1] | rw [if_neg h1]
    simp only [cc4__scatter_kernel_eq_skeleton]
    unfold cc4__scatter_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | sl_exact (hcond4_0 t).mpr h0 | sl_exact (hcond4_0 t).not.mpr h0 | sl_exact (hcond4_1 t).mpr h1 | sl_exact (hcond4_1 t).not.mpr h1)
    sl_step
    iapply Hk
    isplitl [H0]; swap; isplitl [H1]; swap; isplitl [H2]
    all_goals
      iexists _; isplitr; swap; · iassumption
      ipureintro
      first
      | with_reducible rfl
      | try sl_unfold_words
        rw [View.read_writes_eq_canon _ _ _ (cover4 _ _), View.canon_cons_unit_zero (Val := Elt F) (S := S2000x128) zero4]
        simp only [View.readCov_unit_zero (Val := Elt F) (S := S2000x128) _ zero4, View.readAt_eq_ld, View.ld_unit_zero (S := S1x6400) zero4,
          View.ld_unit_zero (S := S6400x128) zero4, View.ld_unit_zero (S := S2000x128) zero4]

noncomputable def acc4 (c : Dev nD) : (n : ℕ) → n < cfg4.N → Vec F S2000x128 .f32
  | 0, hn => k4_pay2 (grid4.coords ⟨0, hn⟩) (iblk4 V c 0 ⟨0, hn⟩) (iblk4 V c 1 ⟨0, hn⟩) k4_pay1
  | n + 1, hn => k4_pay2 (grid4.coords ⟨n + 1, hn⟩) (iblk4 V c 0 ⟨n + 1, hn⟩) (iblk4 V c 1 ⟨n + 1, hn⟩)
      (if (n + 1) % 94 = 0 then k4_pay1 else acc4 c n (Nat.lt_of_succ_lt hn))

theorem acc4_first (c : Dev nD) (t : Fin cfg4.N) (h0 : t.val % 94 = 0) :
    acc4 V c t.val t.isLt = k4_pay2 (grid4.coords t) (iblk4 V c 0 t) (iblk4 V c 1 t) k4_pay1 := by
  obtain ⟨_ | n, hn⟩ := t
  · rfl
  · exact congrArg (k4_pay2 _ _ _) (if_pos h0)

theorem acc4_next (c : Dev nD) (t : Fin cfg4.N) (h0 : ¬t.val % 94 = 0) :
    acc4 V c t.val t.isLt = k4_pay2 (grid4.coords t) (iblk4 V c 0 t) (iblk4 V c 1 t)
      (acc4 V c (t.val - 1) (Nat.lt_of_le_of_lt (Nat.sub_le _ _) t.isLt)) := by
  obtain ⟨_ | n, hn⟩ := t
  · exact absurd (Nat.zero_mod _) h0
  · exact congrArg (k4_pay2 _ _ _) (if_neg h0)

-- Before point n the accumulator holds what point n - 1 left; before the first point it may hold anything.
noncomputable def PhiS4 (c : Dev nD) (n : ℕ) (h : n ≤ cfg4.N) : sProp 𝕄 :=
  inv4 c iprop(∃ xs, ⌜∀ hn : n ≠ 0, xs = acc4 V c (n - 1) (by omega)⌝ ∗ owns (c : Thread nD τ) scM4_0 fullShare xs)

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = acc4 V c t.val t.isLt := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

-- Each point takes the invariant before it to the invariant after it and leaves every block as the proof data say.
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) fun _ =>
      iprop((dat4 V c).Φ t.succ ∗ (dat4 V c).owesAt () t.succ
        ∗ (dat4 V c).leavesExact 0 t ∗ (dat4 V c).leavesExact 1 t ∗ (dat4 V c).leavesExact 2 t) := by
  simp only [before4_0, before4_1]
  have ha : ∀ xs, (∀ hn : t.val ≠ 0, xs = acc4 V c (t.val - 1) (by omega)) →
      k4_pay2 (grid4.coords t) (iblk4 V c 0 t) (iblk4 V c 1 t) (if t.val % 94 = 0 then k4_pay1 else xs)
        = acc4 V c t.val t.isLt := fun xs hx => by
    by_cases h0 : t.val % 94 = 0
    · rw [if_pos h0, acc4_first V c t h0]
    · rw [if_neg h0, acc4_next V c t h0, hx fun e => h0 (by rw [e])]
  have hL : ∀ d, owns (c : Thread nD τ) (st4_2 t) fullShare
      (if t.val % 94 = 93 then acc4 V c t.val t.isLt else (dat4 V c).before 2 t d) ⊢ (dat4 V c).leavesExact 2 t := fun d => by
    by_cases h1 : t.val % 94 = 93
    · rw [if_pos h1]; unfold Dat.leavesExact; rw [liveAt4_2 t ((hcond4_1 t).mpr h1)]; exact .rfl
    · have hc := (hcond4_1 t).not.mpr h1
      rw [if_neg h1, Dat.leavesExact_idle _ 2 t (idleAt4_2 t hc) (noFlush4_2 t hc)]; iintro H; iexists d; iexact H
  rw [show (dat4 V c).Φ t.castSucc = PhiS4 V c t.val (Nat.le_of_lt t.isLt) from rfl,
    show (dat4 V c).Φ t.succ = PhiS4 V c (t.val + 1) t.isLt from rfl]
  unfold PhiS4 inv4
  iintro ⟨⟨⟨⟨%xs, %hx, HS⟩, HR⟩, Hg⟩, Ho, ⟨%d0, H0⟩, ⟨%d1, H1⟩, ⟨%d2, H2⟩⟩
  iapply (kernel4 c Set.univ t _ _ _ _ _ _ _ _ (iblk4 V c 0 t) (iblk4 V c 1 t) _ xs _)
  isplitl [H0]; · iexact H0
  isplitl [H1]; · iexact H1
  isplitl [H2]; · iexact H2
  isplitl [HS]; · iexact HS
  rw [ha xs hx]
  iintro ⟨H0, H1, H2, HS⟩
  iframe HR Hg
  isplitl [HS]
  · iexists _; isplitr; swap; · iexact HS
    ipureintro; exact fun _ => rfl
  isplitl [Ho]; · iexact Ho
  isplitl [H0]; · iexact H0
  isplitl [H1]; · iexact H1
  iapply (hL d2); iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [PhiA4_eq]; show _ ⊢ PhiS4 V c 0 (Nat.zero_le _); unfold PhiS4 inv4
  iintro ⟨⟨⟨%d, HS⟩, HR⟩, Hg⟩
  iframe HR Hg
  iexists d; isplitr; · ipureintro; exact fun h => absurd rfl h
  iexact HS

theorem hout4 (c : Dev nD) : (dat4 V c).Φ (Fin.last cfg4.N) ⊢ Pipeline.ΦA spec4 c := by
  rw [PhiA4_eq, show (dat4 V c).Φ (Fin.last cfg4.N) = PhiS4 V c _ (Fin.last cfg4.N).is_le from rfl]; unfold PhiS4 inv4
  iintro ⟨⟨⟨%xs, %_, HS⟩, HR⟩, Hg⟩
  iframe HR Hg
  iexists _; iexact HS

end Cert.Kernel.Gen

end
-- ==== Proof.KWRegion5.lean ====
import proofs.«431135_j8108898255053_1_alg».proof.Proof.Gen.Kernel.Launch
import proofs.«431135_j8108898255053_1_alg».proof.Proof.Gen.Kernel.Skeleton
import proofs.«431135_j8108898255053_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S128 := Rect.unit (s := S128) ![0] S128.size inb_S128_S128_0

noncomputable def out5_6 (x0 : Vec F S5000x128 .f32) (x1 : Vec F S5000x128 .f32) (x2 : Vec F S128x128 .f32) (x3 : Vec F S128 .f32)
    (x4 : Vec F S128x128 .f32) (x5 : Vec F S128 .f32) : Vec F S5000x128 .f32 :=
  View.canon [⟨r5_0, k5_pay1 (View.ld x0 r5_0) (View.ld x1 r5_0) (View.ld x2 r5_1) (View.ld x4 r5_1) (View.ld x3 r5_2) (View.ld x5 r5_2)⟩]

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) : ∀ w : Fin cfg5.W, w ≠ 6 → ∀ d, (dat5 V c).before w t d = (dat5 V c).after w t
  | ⟨6, _⟩, h, _ => absurd rfl h
  | ⟨0, _⟩, _, d | ⟨1, _⟩, _, d | ⟨2, _⟩, _, d | ⟨3, _⟩, _, d | ⟨4, _⟩, _, d | ⟨5, _⟩, _, d =>
    ((dat5 V c).before_in_eq_fetched _ rfl (fun _ => rfl) (fun _ _ _ => rfl) (fun _ => by dsimp only [dat5]; rfl) t d).trans
      (by dsimp only [dat5]; unfold Dat.fetched Dat.blockOf iblk5; rfl)

theorem body_obligation5 (c : Dev nD) : BodyObligation (dat5 (F := F) V c) (defs₀ (F := F)) Variants.none () Set.univ := fun t => by
  rw [bigSep_W5, bigSep_W5]
  simp (disch := decide) only [before5 V c t]
  dsimp only [dat5, Dat.owesAt, Dat.bound]
  show _ ⊢ wp _ _ _ (bodyAt5 t) _
  unfold bodyAt5
  generalize iblk5 V c 0 t = x0, iblk5 V c 1 t = x1, iblk5 V c 2 t = x2, iblk5 V c 3 t = x3, iblk5 V c 4 t = x4, iblk5 V c 5 t = x5
  simp only [cc5__mlp_kernel_eq_skeleton]; unfold cc5__mlp_kernel_skel
  conv_lhs => unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩⟩
  subst hf0 hf1 hf2 hf3 hf4 hf5
  sl_exec
  sl_step
  iframe HΦ Ho
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  unfold owns
  iexists _; isplitr
  swap; · iexact H6
  ipureintro
  exact View.read_writes_eq_canon _ _ _ (View.cover_of_tiled _ S5000x128.size (by rfl))

theorem hin5 (c : Dev nD) : Pipeline.ΦA spec5 c ⊢ (dat5 V c).Φ 0 := Entails.refl _

theorem hout5 (c : Dev nD) : (dat5 V c).Φ (Fin.last cfg5.N) ⊢ Pipeline.ΦA spec5 c := Entails.refl _

end Cert.Kernel.Gen

end
-- ==== Proof.KWRun.lean ====
import proofs.«431135_j8108898255053_1_alg».proof.Proof.KWRegion0
import proofs.«431135_j8108898255053_1_alg».proof.Proof.KWRegion1
import proofs.«431135_j8108898255053_1_alg».proof.Proof.KWRegion2
import proofs.«431135_j8108898255053_1_alg».proof.Proof.KWRegion3
import proofs.«431135_j8108898255053_1_alg».proof.Proof.KWRegion4
import proofs.«431135_j8108898255053_1_alg».proof.Proof.KWRegion5
import proofs.«431135_j8108898255053_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A call leaves every buffer that is not one of its output arrays as it found it. -/
theorem keep {p : Fin 6} (l : Pipeline.LaunchFacts (nD := nD) (τ := τ) cfgs p) (c : Dev nD) (V : Valuation τ sig (Elt F))
    (d : Dat τ (Elt F) Unit ℕ (UR sig nD τ) ℕ (cfgs p) c)
    (hA : ∀ w, d.A w = V (Proc.devRef .tc (Pipeline.arrRef (cfgs p).spec w))) (b : Ref sig .tc)
    (h : ∀ w, Pipeline.arrRef (cfgs p).spec w = b → ((cfgs p).win w).isOut = false) :
    Pipeline.withArrays (cfgs p).spec c V (fun w => d.arrAt w (cfgs p).N) (Proc.devRef .tc b) = V (Proc.devRef .tc b) := by
  by_cases hb : ∃ w, Pipeline.arrRef (cfgs p).spec w = b
  · obtain ⟨w, rfl⟩ := hb
    rw [Pipeline.withArrays_arr _ l.win.arr_inj]
    exact (d.arrAt_in w (h w rfl) _).trans (hA w)
  · exact Pipeline.withArrays_of_ne _ c _ _ b fun w e => hb ⟨w, e⟩

abbrev En0 : (c : Dev nD) → (b : Ref sig .tc) → Buf (Elt F) ((c : Thread nD τ).loc b) := fun c b => V5 m c b
noncomputable def B1 (c : Dev nD) : Valuation τ sig (Elt F) :=
  Pipeline.withArrays spec0 c (V5 m c) fun w => (dat0 (En0 m) c).arrAt w cfg0.N
theorem B1_arr (c : Dev nD) (w : Fin cfg0.W) :
    B1 m c (Proc.devRef .tc (Pipeline.arrRef spec0 w)) = (dat0 (En0 m) c).arrAt w cfg0.N :=
  Pipeline.withArrays_arr spec0 launch0.win.arr_inj c _ _ w
theorem B1_keep (c : Dev nD) (b : Ref sig .tc) (h : ∀ w, Pipeline.arrRef spec0 w = b → (cfg0.win w).isOut = false) :
    B1 m c (Proc.devRef .tc b) = V5 m c (Proc.devRef .tc b) :=
  keep launch0 c _ _ (A_eq0 (En0 m) c) b h

abbrev En1 : (c : Dev nD) → (b : Ref sig .tc) → Buf (Elt F) ((c : Thread nD τ).loc b) := fun c b => B1 m c b
noncomputable def B2 (c : Dev nD) : Valuation τ sig (Elt F) :=
  Pipeline.withArrays spec1 c (B1 m c) fun w => (dat1 (En1 m) c).arrAt w cfg1.N
theorem B2_arr (c : Dev nD) (w : Fin cfg1.W) :
    B2 m c (Proc.devRef .tc (Pipeline.arrRef spec1 w)) = (dat1 (En1 m) c).arrAt w cfg1.N :=
  Pipeline.withArrays_arr spec1 launch1.win.arr_inj c _ _ w
theorem B2_keep (c : Dev nD) (b : Ref sig .tc) (h : ∀ w, Pipeline.arrRef spec1 w = b → (cfg1.win w).isOut = false) :
    B2 m c (Proc.devRef .tc b) = B1 m c (Proc.devRef .tc b) :=
  keep launch1 c _ _ (A_eq1 (En1 m) c) b h

abbrev En2 : (c : Dev nD) → (b : Ref sig .tc) → Buf (Elt F) ((c : Thread nD τ).loc b) := fun c b => B2 m c b
noncomputable def B3 (c : Dev nD) : Valuation τ sig (Elt F) :=
  Pipeline.withArrays spec2 c (B2 m c) fun w => (dat2 (En2 m) c).arrAt w cfg2.N
theorem B3_arr (c : Dev nD) (w : Fin cfg2.W) :
    B3 m c (Proc.devRef .tc (Pipeline.arrRef spec2 w)) = (dat2 (En2 m) c).arrAt w cfg2.N :=
  Pipeline.withArrays_arr spec2 launch2.win.arr_inj c _ _ w
theorem B3_keep (c : Dev nD) (b : Ref sig .tc) (h : ∀ w, Pipeline.arrRef spec2 w = b → (cfg2.win w).isOut = false) :
    B3 m c (Proc.devRef .tc b) = B2 m c (Proc.devRef .tc b) :=
  keep launch2 c _ _ (A_eq2 (En2 m) c) b h
abbrev H3 : Dev nD → Valuation τ sig (Elt F) := fun c => StableHlo.after hostOps3 (B3 m c)
theorem H3_of (c : Dev nD) (r : Ref sig .tc) (h : r ∉ hostOps3_W) : H3 m c r = B3 m c r :=
  StableHlo.after_of_writes_sub hostOps3 _ hostOps3_writes h

abbrev En3 : (c : Dev nD) → (b : Ref sig .tc) → Buf (Elt F) ((c : Thread nD τ).loc b) := fun c b => H3 m c b
noncomputable def B4 (c : Dev nD) : Valuation τ sig (Elt F) :=
  Pipeline.withArrays spec3 c (H3 m c) fun w => (dat3 (En3 m) c).arrAt w cfg3.N
theorem B4_arr (c : Dev nD) (w : Fin cfg3.W) :
    B4 m c (Proc.devRef .tc (Pipeline.arrRef spec3 w)) = (dat3 (En3 m) c).arrAt w cfg3.N :=
  Pipeline.withArrays_arr spec3 launch3.win.arr_inj c _ _ w
theorem B4_keep (c : Dev nD) (b : Ref sig .tc) (h : ∀ w, Pipeline.arrRef spec3 w = b → (cfg3.win w).isOut = false) :
    B4 m c (Proc.devRef .tc b) = H3 m c (Proc.devRef .tc b) :=
  keep launch3 c _ _ (A_eq3 (En3 m) c) b h

abbrev En4 : (c : Dev nD) → (b : Ref sig .tc) → Buf (Elt F) ((c : Thread nD τ).loc b) := fun c b => B4 m c b
noncomputable def B5 (c : Dev nD) : Valuation τ sig (Elt F) :=
  Pipeline.withArrays spec4 c (B4 m c) fun w => (dat4 (En4 m) c).arrAt w cfg4.N
theorem B5_arr (c : Dev nD) (w : Fin cfg4.W) :
    B5 m c (Proc.devRef .tc (Pipeline.arrRef spec4 w)) = (dat4 (En4 m) c).arrAt w cfg4.N :=
  Pipeline.withArrays_arr spec4 launch4.win.arr_inj c _ _ w
theorem B5_keep (c : Dev nD) (b : Ref sig .tc) (h : ∀ w, Pipeline.arrRef spec4 w = b → (cfg4.win w).isOut = false) :
    B5 m c (Proc.devRef .tc b) = B4 m c (Proc.devRef .tc b) :=
  keep launch4 c _ _ (A_eq4 (En4 m) c) b h

abbrev En5 : (c : Dev nD) → (b : Ref sig .tc) → Buf (Elt F) ((c : Thread nD τ).loc b) := fun c b => B5 m c b
noncomputable def B6 (c : Dev nD) : Valuation τ sig (Elt F) :=
  Pipeline.withArrays spec5 c (B5 m c) fun w => (dat5 (En5 m) c).arrAt w cfg5.N

noncomputable def pdats : (p : Fin 6) → (c : Dev nD) → Dat τ (Elt F) Unit ℕ (UR sig nD τ) ℕ (Pipeline.pin (pcfgs (F := F)) adm p) c
  | ⟨0, _⟩ => dat0 (En0 m)
  | ⟨1, _⟩ => dat1 (En1 m)
  | ⟨2, _⟩ => dat2 (En2 m)
  | ⟨3, _⟩ => dat3 (En3 m)
  | ⟨4, _⟩ => dat4 (En4 m)
  | ⟨5, _⟩ => dat5 (En5 m)

theorem pd (c : Dev nD) : ∀ p : Fin 6, (∀ w, (pdats m p c).q w = fullShare) ∧ (∀ t, (pdats m p c).owed t = 0) ∧ ∀ x, x ∈ (pdats m p c).recorded 0
  | ⟨0, _⟩ | ⟨1, _⟩ | ⟨2, _⟩ | ⟨3, _⟩ | ⟨4, _⟩ | ⟨5, _⟩ => ⟨fun _ => rfl, fun _ => rfl, fun _ => trivial⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A call as an item: its arrays are taken out of the valuation V it finds and put back at their final contents. -/
noncomputable def reg {p : Fin 6} (l : Pipeline.LaunchFacts (nD := nD) (τ := τ) cfgs p) (V : Dev nD → Valuation τ sig (Elt F))
    (hA : ∀ c w, (pdats m p c).A w = V c (Proc.devRef .tc (Pipeline.arrRef (cfgs p).spec w)))
    (hbd : ∀ c, BodyObligation (pdats m p c) (defs₀ (F := F)) Variants.none () Set.univ)
    (hI : ∀ c, Pipeline.ΦA (cfgs p).spec c ⊢ (pdats m p c).Φ 0)
    (hO : ∀ c, (pdats m p c).Φ (Fin.last (cfgs p).N) ⊢ Pipeline.ΦA (cfgs p).spec c) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hbd c).loose
  hwaits := Pipeline.hwaits_of_owed_zero _ _ _ _ L lv p fun c => (pd m c p).2.1
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m p c).arrAt w (cfgs p).N) ∗ R c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm (pdats m) l.win l.arr_whole c
      ((pdats m p c).share_full (pd m c p).1) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pd m c p).2.1]
      icases HO with ⟨%W, HO⟩; iexists W; isplitr; · ipureintro; exact fun x _ => Or.inl ((pd m c p).2.2 x)
      iexact HO
    isplitl [Hp]; · iexact Hp
    iexact Hrest
  hin c := by
    refine BIBase.Entails.trans ?_ (hI c)
    unfold Pipeline.ΦA
    iintro ⟨Hp, -, Hr⟩
    isplitl [Hr] <;> iassumption
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm l.win l.arr_whole c (pdats m)
      ((pdats m p c).share_full (pd m c p).1) (fun b => V c b)
      (fun b : Ref sig .tc => Pipeline.withArrays (cfgs p).spec c (V c) (fun w => (pdats m p c).arrAt w (cfgs p).N) b)
      ((pdats m p c).arrAt · (cfgs p).N)
      (fun w => (Pipeline.withArrays_arr _ l.win.arr_inj c (V c) (fun w => (pdats m p c).arrAt w (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pd m c p).2.1]
    icases HO with ⟨%W, -, HO⟩; iexists W; iexact HO

abbrev rsegs : List (Pipeline.Seg (pcfgs (F := F)) adm (pdats m) () defs₀ 𝒱₀ L lv) :=
  [ .host (seg0 m 𝒱₀ L lv fun _ => R), .host (seg1 m 𝒱₀ L lv fun _ => R), .host (seg2 m 𝒱₀ L lv fun _ => R),
    .host (seg3 m 𝒱₀ L lv fun _ => R), .host (seg4 m 𝒱₀ L lv fun _ => R),
    .region (reg m launch0 (V5 m) (fun _ _ => rfl) (body_obligation0 _) (hin0 _) (hout0 _)),
    .region (reg m launch1 (B1 m) (fun _ _ => rfl) (body_obligation1 _) (hin1 _) (hout1 _)),
    .region (reg m launch2 (B2 m) (fun _ _ => rfl) (body_obligation2 _) (hin2 _) (hout2 _)),
    .host (Pipeline.HostSeg.ofOps _ _ _ _ _ (Pipeline.ucRefs τ sig) hostOps3
      (fun op h => Pipeline.sub_ucRefs op (List.forall_iff_forall_mem.mp hostOps3_sub op h))
      (List.forall_iff_forall_mem.mp hostOps3_fresh) (B3 m) R),
    .region (reg m launch3 (H3 m) (fun _ _ => rfl) (body_obligation3 _) (hin3 _) (hout3 _)),
    .region (reg m launch4 (B4 m) (fun _ _ => rfl) (body_obligation4 _) (hin4 _) (hout4 _)),
    .region (reg m launch5 (B5 m) (fun _ _ => rfl) (body_obligation5 _) (hin5 _) (hout5 _)) ]

/-- Every weakly fair execution of the program terminates, and the final memory holds every buffer that outlives the calls at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (rsegs m)
    (fun c Q => by rw [main_chain c, Pipeline.Seg.run_eq_chain]; exact .rfl)
    (by simp only [rsegs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl)
        iexact Hu
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (B6 m c) ∗ ∃ r, prngReg c r))
    (hch := by refine ⟨?_, ?_, ?_, ?_, ?_, ?_, ?_, ?_, ?_, ?_, ?_, ?_, fun _ => Laws.sep_assoc.2⟩ <;> exact fun _ => .rfl)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- r outlives the calls, no host stretch writes it, and it is no call's output array. -/
abbrev Kept (r : Ref sig .tc) : Prop :=
  ¬ (Proc.devRef .tc r : DevRef τ sig).isScoped
    ∧ (∀ (p : Fin 6) w, Pipeline.arrRef (cfgs p).spec w = r → ((cfgs p).win w).isOut = false)
    ∧ r ∉ hostOps3_W ∧ r ∉ hostOps0_W ∧ r ∉ hostOps0_1_W ∧ r ∉ hostOps0_2_W ∧ r ∉ hostOps0_3_W ∧ r ∉ hostOps0_4_W

theorem B6_kept (c : Dev nD) (r : Ref sig .tc) {s : MemSt nD τ sig (Elt F)}
    (h : ∀ b ∈ Pipeline.ucRefs τ sig, s.mem (((c : Thread nD τ)).1, b) = B6 m c b) :
    Kept r → s.mem ((c : Thread nD τ).loc r) = m ((c : Thread nD τ).loc r)
  | ⟨u, k, hh, g0, g1, g2, g3, g4⟩ =>
    (h _ (Finset.mem_filter.mpr ⟨StableHlo.devRef_mem_tcRefs r, u⟩)).trans <| (keep launch5 c (B5 m c) (dat5 (En5 m) c) (A_eq5 (En5 m) c) r (k 5)).trans <| (B5_keep m c r (k 4)).trans <|
      (B4_keep m c r (k 3)).trans <| (H3_of m c r hh).trans <| (B3_keep m c r (k 2)).trans <| (B2_keep m c r (k 1)).trans <|
      (B1_keep m c r (k 0)).trans <| (V5_of m c r g4).trans <| (V4_of m c r g3).trans <| (V3_of m c r g2).trans <|
      (V2_of m c r g1).trans <| (V1_of m c r g0).trans rfl

theorem run_result : θ_run defs (onTc (τ := τ) (main (F := F))) ⟨m, fun _ => 0, ρ⟩ (fun r => ∀ c : Dev nD,
      r.2.mem ((c.tc : Thread nD τ).loc main_v11) = (dat5 (En5 m) c).arrAt 6 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    have k := fun r => B6_kept m c r (h c)
    ⟨(h c _ (Finset.mem_filter.mpr ⟨StableHlo.devRef_mem_tcRefs main_v11, by decide⟩)).trans (Pipeline.withArrays_arr spec5 launch5.win.arr_inj c _ _ 6),
      k main_arg0 (by decide), k main_arg1 (by decide), k main_arg2 (by decide), k main_arg3 (by decide),
      k main_arg4 (by decide), k main_arg5 (by decide), k main_arg6 (by decide), k main_arg7 (by decide),
      k main_arg8 (by decide), k main_arg9 (by decide), k main_arg10 (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.Kernel.Gen

end
-- ==== Proof.KIRegion0.lean ====
import proofs.«431135_j8108898255053_1_alg».proof.Proof.Gen.KernelIdeal.Launch
import proofs.«431135_j8108898255053_1_alg».proof.Proof.Gen.KernelIdeal.Skeleton
import proofs.«431135_j8108898255053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

theorem idleAt0_2 : ∀ t : Fin cfg0.N, ¬ t.val % 25 = 24 → cfg0.idle 2 (grid0.coords t) = true :=
  (by decide +kernel : ∀ t : Fin grid0.N, ¬ t.val % 25 = 24 → idle0 2 (grid0.coords t) = true)

abbrev scM0_0 : Memref sig .tc .vmem S6400x128 .f32 := Memref.whole cc0_scratch0

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hz0 : (![0, 0] : Fin 2 → Nat) = fun _ => 0 := funext fun a => by fin_cases a <;> rfl

set_option maxHeartbeats 1000000 in
/-- The body as one triple: the point's product is added to the zero block where the first conditional holds, else to `xs`; where the second holds the output block is that sum in the output's format. -/
theorem sound_kernel0 (c : Dev nD) (E : Set ℕ) (i : grid0.Coords)
    (arg2 : Memref sig .tc .vmem S6400x1 .i32) (harg2 : arg2.IsWhole) (arg3 : Memref sig .tc .vmem S2000x128 .bf16) (harg3 : arg3.IsWhole)
    (arg4 : Memref sig .tc .vmem S6400x128 .bf16) (harg4 : arg4.IsWhole) (arg5 : Memref sig .tc .vmem S6400x128 .f32) (harg5 : arg5.IsWhole)
    (hc : cond0_0 i → ¬cond0_1 i)
    (x0 : Vec F S6400x1 .i32) (x1 : Vec F S2000x128 .bf16) (x2 : Vec F S6400x128 .bf16) (xs : Vec F S6400x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs
        ∗ (iprop(owns (c : Thread nD τ) arg2 fullShare x0 ∗ owns (c : Thread nD τ) arg3 fullShare x1
            ∗ owns (c : Thread nD τ) arg4 fullShare (if cond0_1 i then k0_pay3 (k0_pay2 i x0 x1 (if cond0_0 i then k0_pay1 else xs)) else x2)
            ∗ owns (c : Thread nD τ) arg5 fullShare (k0_pay2 i x0 x1 (if cond0_0 i then k0_pay1 else xs))) -∗ K ⟨⟩))
      ⊢ wp frame (wpE (defs₀ (F := F)) Variants.none c none) E (cc0__gather_kernel i arg2 harg2 arg3 harg3 arg4 harg4 arg5 harg5) K := by
  by_cases hc0 : cond0_0 i <;> by_cases hc1 : cond0_1 i
  · exact absurd hc1 (hc hc0)
  all_goals
    first | rw [if_pos hc0] | rw [if_neg hc0]
    first | rw [if_pos hc1] | rw [if_neg hc1]
    simp only [cc0__gather_kernel_eq_skeleton]; unfold cc0__gather_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | exact hc0 | exact hc1)
    sl_step
    iapply Hk
    isplitl [H0]; rotate_left; isplitl [H1]; rotate_left; isplitl [H2]
    all_goals
      iexists _; isplitr
      swap; · first | iexact H0 | iexact H1 | iexact H2 | iexact HS
      ipureintro
      first
      | with_reducible rfl
      | (try sl_unfold_words
         refine (View.read_writes_eq_canon _ _ _ fun y => ⟨_, List.mem_cons_self, View.mem_set_unit_zero hz0 inb_S6400x128_S6400x128_0_0 y⟩).trans ?_
         simp only [View.canon_cons_unit_zero (S := S6400x128) hz0, View.readCov_unit_zero (S := S6400x128) _ hz0, View.readAt_eq_ld,
           View.ld_unit_zero (S := S6400x1) hz0, View.ld_unit_zero (S := S2000x128) hz0, View.ld_unit_zero (S := S6400x128) hz0])

noncomputable def acc0 (c : Dev nD) : (n : ℕ) → n < cfg0.N → Vec F S6400x128 .f32
  | 0, hn => k0_pay2 (grid0.coords ⟨0, hn⟩) (iblk0 V c 0 ⟨0, hn⟩) (iblk0 V c 1 ⟨0, hn⟩) k0_pay1
  | n + 1, hn => k0_pay2 (grid0.coords ⟨n + 1, hn⟩) (iblk0 V c 0 ⟨n + 1, hn⟩) (iblk0 V c 1 ⟨n + 1, hn⟩)
      (if (n + 1) % 25 = 0 then k0_pay1 else acc0 c n (Nat.lt_of_succ_lt hn))
theorem acc0_first (c : Dev nD) (t : Fin cfg0.N) (h0 : t.val % 25 = 0) :
    acc0 V c t.val t.isLt = k0_pay2 (grid0.coords t) (iblk0 V c 0 t) (iblk0 V c 1 t) k0_pay1 := by
  obtain ⟨n, hn⟩ := t
  cases n with
  | zero => exact rfl
  | succ n => exact congrArg (k0_pay2 _ _ _) (if_pos h0)
theorem acc0_next (c : Dev nD) (t : Fin cfg0.N) (h0 : ¬t.val % 25 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact congrArg (k0_pay2 _ _ _) (if_neg h0)

/-- The invariant before position `n`: the accumulator at some contents, those of `acc0` at `n - 1` unless a run of 25 starts at `n`. -/
noncomputable def PhiS0 (c : Dev nD) (n : ℕ) (_ : n ≤ cfg0.N) : sProp 𝕄 :=
  iprop(iprop((∃ d, ⌜¬n % 25 = 0 → ∃ h, d = acc0 V c (n - 1) h⌝ ∗ owns (c : Thread nD τ) scM0_0 fullShare d)
      ∗ Pipeline.scopedRestBut (Ix := Unit) (Name := ℕ) (U := UR sig nD τ) (Lvl := ℕ) (Val := Elt F) spec0 c [cc0_scratch0]) ∗ (∃ r, prngReg c r))

noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = k0_pay3 (acc0 V c t.val t.isLt) := by dsimp only [dat0]

theorem before0 (c : Dev nD) (t : Fin cfg0.N) :
    (∀ d, (dat0 V c).before 0 t d = iblk0 V c 0 t) ∧ ∀ d, (dat0 V c).before 1 t d = iblk0 V c 1 t := by
  constructor <;> exact fun d => (Dat.before_in_eq_fetched _ _ rfl (fun _ => rfl) (fun _ _ _ => rfl) (fun _ => rfl) t d).trans rfl

theorem body_obligation0 (c : Dev nD) : BodyObligation (dat0 (F := F) V c) (defs₀ (F := F)) Variants.none () Set.univ := fun t => by
  have h2 (d) : owns (c : Thread nD τ) (st0_2 t) fullShare
      (if cond0_1 (grid0.coords t) then k0_pay3 (acc0 V c t.val t.isLt) else (dat0 V c).before 2 t d) ⊢ (dat0 V c).leavesExact 2 t := by
    by_cases h1 : t.val % 25 = 24
    · rw [if_pos ((hcond0_1 t).mpr h1)]; unfold Dat.leavesExact; rw [(flush0_2 t).2 h1]; cases cfg0.idle 2 (grid0.coords t) <;> exact .rfl
    · rw [if_neg (mt (hcond0_1 t).mp h1), Dat.leavesExact_idle _ 2 t (idleAt0_2 t h1) (Bool.eq_false_iff.2 (mt (flush0_2 t).1 h1))]
      iintro H; iexists d; iexact H
  rw [bigSep_W0, bigSep_W0]
  simp only [show ∀ s, (dat0 V c).Φ s = PhiS0 V c s.val (Nat.le_of_lt_succ s.isLt) from fun _ => rfl, (before0 V c t).1, (before0 V c t).2]
  change _ ⊢ wp frame _ _ (bodyAt0 t) _
  unfold PhiS0 bodyAt0
  iintro ⟨⟨⟨⟨%xs, %hxs, HS⟩, HR⟩, Hg⟩, Ho, ⟨%d0, H0⟩, ⟨%d1, H1⟩, ⟨%d2, H2⟩⟩
  have hacc : k0_pay2 (grid0.coords t) (iblk0 V c 0 t) (iblk0 V c 1 t) (if cond0_0 (grid0.coords t) then k0_pay1 else xs)
      = acc0 V c t.val t.isLt := by
    by_cases h0 : t.val % 25 = 0
    · rw [if_pos ((hcond0_0 t).mpr h0), acc0_first V c t h0]
    · obtain ⟨h, rfl⟩ := hxs h0
      rw [if_neg (mt (hcond0_0 t).mp h0), acc0_next V c t h0]; rfl
  iapply (sound_kernel0 c Set.univ (grid0.coords t) _ _ _ _ _ _ _ _
    (fun a b => by have := (hcond0_0 t).mp a; have := (hcond0_1 t).mp b; omega) (iblk0 V c 0 t) (iblk0 V c 1 t) _ xs _)
  iframe H0 H1 H2 HS
  iintro ⟨H0, H1, H2, HS⟩
  rw [hacc]
  isplitl [HS HR Hg]
  · iframe HR Hg; iexists _; isplitr
    swap; · iexact HS
    ipureintro; exact fun _ => ⟨t.isLt, rfl⟩
  isplitl [Ho]; · iexact Ho
  isplitl [H0]; · iexact H0
  isplitl [H1]; · iexact H1
  iapply h2 d2; iexact H2

theorem hin0 (c : Dev nD) : Pipeline.ΦA spec0 c ⊢ (dat0 V c).Φ 0 := by
  rw [PhiA0_eq, show (dat0 V c).Φ 0 = PhiS0 V c 0 (Nat.zero_le _) from rfl]; unfold PhiS0
  iintro ⟨⟨⟨%d, HS⟩, HR⟩, Hg⟩
  iframe HR Hg; iexists d; isplitr; · ipureintro; exact fun h => absurd rfl h
  iexact HS

theorem hout0 (c : Dev nD) : (dat0 V c).Φ (Fin.last cfg0.N) ⊢ Pipeline.ΦA spec0 c := by
  rw [PhiA0_eq, show (dat0 V c).Φ (Fin.last cfg0.N) = PhiS0 V c cfg0.N (Nat.le_refl _) from rfl]; unfold PhiS0
  iintro ⟨⟨⟨%d, -, HS⟩, HR⟩, Hg⟩
  iframe HR Hg; iexists d; iexact HS

end Cert.KernelIdeal.Gen

end
-- ==== Proof.KIRegion1.lean ====
import proofs.«431135_j8108898255053_1_alg».proof.Proof.Gen.KernelIdeal.Launch
import proofs.«431135_j8108898255053_1_alg».proof.Proof.Gen.KernelIdeal.Skeleton
import proofs.«431135_j8108898255053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 94 = 0 :=
  (by decide +kernel : ∀ t : Fin grid1.N, cond1_0 (grid1.coords t) ↔ t.val % 94 = 0)

abbrev cond1_1 (i : grid1.Coords) : Prop := k1_cond2 i = 1#1
theorem hcond1_1 : ∀ t : Fin cfg1.N, cond1_1 (grid1.coords t) ↔ t.val % 94 = 93 :=
  (by decide +kernel : ∀ t : Fin grid1.N, cond1_1 (grid1.coords t) ↔ t.val % 94 = 93)

theorem idleAt1_2 : ∀ t : Fin cfg1.N, ¬cond1_1 (grid1.coords t) → cfg1.idle 2 (grid1.coords t) = true :=
  (by decide +kernel : ∀ t : Fin grid1.N, ¬cond1_1 (grid1.coords t) → idle1 2 (grid1.coords t) = true)
theorem noFlush1_2 : ∀ t : Fin cfg1.N, ¬cond1_1 (grid1.coords t) → (cfg1.win 2).flush t = false :=
  (by decide +kernel : ∀ t : Fin grid1.N, ¬cond1_1 (grid1.coords t) → win1_2.flush t = false)
theorem liveAt1_2 : ∀ t : Fin cfg1.N, cond1_1 (grid1.coords t) → cfg1.idle 2 (grid1.coords t) = false :=
  (by decide +kernel : ∀ t : Fin grid1.N, cond1_1 (grid1.coords t) → idle1 2 (grid1.coords t) = false)

abbrev scM1_0 : Memref sig .tc .vmem S2000x128 .f32 := Memref.whole cc1_scratch0

noncomputable def inv1 (c : Dev nD) (S : sProp 𝕄) : sProp 𝕄 :=
  iprop(iprop(S ∗ Pipeline.scopedRestBut (Ix := Unit) (Name := ℕ) (U := UR sig nD τ) (Lvl := ℕ) (Val := Elt F) spec1 c [cc1_scratch0]) ∗ (∃ r, prngReg c r))

theorem PhiA1_eq (c : Dev nD) :
    (Pipeline.ΦA spec1 c : sProp 𝕄) = inv1 c iprop(∃ d, owns (c : Thread nD τ) scM1_0 fullShare d) := by
  unfold Pipeline.ΦA; rw [scopedRest1_split]; simp only [scM1_0, owns_whole]; try rfl

theorem zero1 : (![0, 0] : Fin 2 → ℕ) = fun _ => 0 := funext fun a => by fin_cases a <;> rfl

theorem cover1 (p : Vec F S2000x128 .f32) (L : List (View.Piece (Elt F) S2000x128 .f32)) (y : S2000x128.Idx) :
    ∃ pc ∈ ((⟨Rect.unit (s := S2000x128) ![0, 0] S2000x128.size inb_S2000x128_S2000x128_0_0, p⟩ : View.Piece (Elt F) S2000x128 .f32) :: L),
      y ∈ pc.1.set :=
  ⟨_, List.mem_cons_self .., View.mem_set_unit_zero zero1 inb_S2000x128_S2000x128_0_0 y⟩

-- One step of the accumulation: it restarts from zero at the first point of a run, this point's one-hot product is added, and at the last point of a run the sum is also written out.
theorem kernel1 (c : Dev nD) (E : Set ℕ) (t : Fin cfg1.N)
    (arg2 : Memref sig .tc .vmem S1x6400 .i32) (harg2 : arg2.IsWhole) (arg3 : Memref sig .tc .vmem S6400x128 .bf16) (harg3 : arg3.IsWhole)
    (arg4 : Memref sig .tc .vmem S2000x128 .f32) (harg4 : arg4.IsWhole) (arg5 : Memref sig .tc .vmem S2000x128 .f32) (harg5 : arg5.IsWhole)
    (x0 : Vec F S1x6400 .i32) (x1 : Vec F S6400x128 .bf16) (y xs : Vec F S2000x128 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare xs
        ∗ (iprop(owns (c : Thread nD τ) arg2 fullShare x0 ∗ owns (c : Thread nD τ) arg3 fullShare x1
            ∗ owns (c : Thread nD τ) arg4 fullShare
              (if t.val % 94 = 93 then k1_pay2 (grid1.coords t) x0 x1 (if t.val % 94 = 0 then k1_pay1 else xs) else y)
            ∗ owns (c : Thread nD τ) arg5 fullShare (k1_pay2 (grid1.coords t) x0 x1 (if t.val % 94 = 0 then k1_pay1 else xs))) -∗ K ⟨⟩))
      ⊢ wp frame (wpE (defs₀ (F := F)) Variants.none c none) E
          (cc1__scatter_kernel (grid1.coords t) arg2 harg2 arg3 harg3 arg4 harg4 arg5 harg5) K := by
  by_cases h0 : t.val % 94 = 0 <;> by_cases h1 : t.val % 94 = 93
  · omega
  all_goals
    first | rw [if_pos h0] | rw [if_neg h0]
    first | rw [if_pos h1] | rw [if_neg h1]
    simp only [cc1__scatter_kernel_eq_skeleton]
    unfold cc1__scatter_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | sl_exact (hcond1_0 t).mpr h0 | sl_exact (hcond1_0 t).not.mpr h0 | sl_exact (hcond1_1 t).mpr h1 | sl_exact (hcond1_1 t).not.mpr h1)
    sl_step
    iapply Hk
    isplitl [H0]; swap; isplitl [H1]; swap; isplitl [H2]
    all_goals
      iexists _; isplitr; swap; · iassumption
      ipureintro
      first
      | with_reducible rfl
      | try sl_unfold_words
        rw [View.read_writes_eq_canon _ _ _ (cover1 _ _), View.canon_cons_unit_zero (Val := Elt F) (S := S2000x128) zero1]
        simp only [View.readCov_unit_zero (Val := Elt F) (S := S2000x128) _ zero1, View.readAt_eq_ld, View.ld_unit_zero (S := S1x6400) zero1,
          View.ld_unit_zero (S := S6400x128) zero1, View.ld_unit_zero (S := S2000x128) zero1]

noncomputable def acc1 (c : Dev nD) : (n : ℕ) → n < cfg1.N → Vec F S2000x128 .f32
  | 0, hn => k1_pay2 (grid1.coords ⟨0, hn⟩) (iblk1 V c 0 ⟨0, hn⟩) (iblk1 V c 1 ⟨0, hn⟩) k1_pay1
  | n + 1, hn => k1_pay2 (grid1.coords ⟨n + 1, hn⟩) (iblk1 V c 0 ⟨n + 1, hn⟩) (iblk1 V c 1 ⟨n + 1, hn⟩)
      (if (n + 1) % 94 = 0 then k1_pay1 else acc1 c n (Nat.lt_of_succ_lt hn))

theorem acc1_first (c : Dev nD) (t : Fin cfg1.N) (h0 : t.val % 94 = 0) :
    acc1 V c t.val t.isLt = k1_pay2 (grid1.coords t) (iblk1 V c 0 t) (iblk1 V c 1 t) k1_pay1 := by
  obtain ⟨_ | n, hn⟩ := t
  · rfl
  · exact congrArg (k1_pay2 _ _ _) (if_pos h0)

theorem acc1_next (c : Dev nD) (t : Fin cfg1.N) (h0 : ¬t.val % 94 = 0) :
    acc1 V c t.val t.isLt = k1_pay2 (grid1.coords t) (iblk1 V c 0 t) (iblk1 V c 1 t)
      (acc1 V c (t.val - 1) (Nat.lt_of_le_of_lt (Nat.sub_le _ _) t.isLt)) := by
  obtain ⟨_ | n, hn⟩ := t
  · exact absurd (Nat.zero_mod _) h0
  · exact congrArg (k1_pay2 _ _ _) (if_neg h0)

-- Before point n the accumulator holds what point n - 1 left; before the first point it may hold anything.
noncomputable def PhiS1 (c : Dev nD) (n : ℕ) (h : n ≤ cfg1.N) : sProp 𝕄 :=
  inv1 c iprop(∃ xs, ⌜∀ hn : n ≠ 0, xs = acc1 V c (n - 1) (by omega)⌝ ∗ owns (c : Thread nD τ) scM1_0 fullShare xs)

noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = acc1 V c t.val t.isLt := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

-- Each point takes the invariant before it to the invariant after it and leaves every block as the proof data say.
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) fun _ =>
      iprop((dat1 V c).Φ t.succ ∗ (dat1 V c).owesAt () t.succ
        ∗ (dat1 V c).leavesExact 0 t ∗ (dat1 V c).leavesExact 1 t ∗ (dat1 V c).leavesExact 2 t) := by
  simp only [before1_0, before1_1]
  have ha : ∀ xs, (∀ hn : t.val ≠ 0, xs = acc1 V c (t.val - 1) (by omega)) →
      k1_pay2 (grid1.coords t) (iblk1 V c 0 t) (iblk1 V c 1 t) (if t.val % 94 = 0 then k1_pay1 else xs)
        = acc1 V c t.val t.isLt := fun xs hx => by
    by_cases h0 : t.val % 94 = 0
    · rw [if_pos h0, acc1_first V c t h0]
    · rw [if_neg h0, acc1_next V c t h0, hx fun e => h0 (by rw [e])]
  have hL : ∀ d, owns (c : Thread nD τ) (st1_2 t) fullShare
      (if t.val % 94 = 93 then acc1 V c t.val t.isLt else (dat1 V c).before 2 t d) ⊢ (dat1 V c).leavesExact 2 t := fun d => by
    by_cases h1 : t.val % 94 = 93
    · rw [if_pos h1]; unfold Dat.leavesExact; rw [liveAt1_2 t ((hcond1_1 t).mpr h1)]; exact .rfl
    · have hc := (hcond1_1 t).not.mpr h1
      rw [if_neg h1, Dat.leavesExact_idle _ 2 t (idleAt1_2 t hc) (noFlush1_2 t hc)]; iintro H; iexists d; iexact H
  rw [show (dat1 V c).Φ t.castSucc = PhiS1 V c t.val (Nat.le_of_lt t.isLt) from rfl,
    show (dat1 V c).Φ t.succ = PhiS1 V c (t.val + 1) t.isLt from rfl]
  unfold PhiS1 inv1
  iintro ⟨⟨⟨⟨%xs, %hx, HS⟩, HR⟩, Hg⟩, Ho, ⟨%d0, H0⟩, ⟨%d1, H1⟩, ⟨%d2, H2⟩⟩
  iapply (kernel1 c Set.univ t _ _ _ _ _ _ _ _ (iblk1 V c 0 t) (iblk1 V c 1 t) _ xs _)
  isplitl [H0]; · iexact H0
  isplitl [H1]; · iexact H1
  isplitl [H2]; · iexact H2
  isplitl [HS]; · iexact HS
  rw [ha xs hx]
  iintro ⟨H0, H1, H2, HS⟩
  iframe HR Hg
  isplitl [HS]
  · iexists _; isplitr; swap; · iexact HS
    ipureintro; exact fun _ => rfl
  isplitl [Ho]; · iexact Ho
  isplitl [H0]; · iexact H0
  isplitl [H1]; · iexact H1
  iapply (hL d2); iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; show _ ⊢ PhiS1 V c 0 (Nat.zero_le _); unfold PhiS1 inv1
  iintro ⟨⟨⟨%d, HS⟩, HR⟩, Hg⟩
  iframe HR Hg
  iexists d; isplitr; · ipureintro; exact fun h => absurd rfl h
  iexact HS

theorem hout1 (c : Dev nD) : (dat1 V c).Φ (Fin.last cfg1.N) ⊢ Pipeline.ΦA spec1 c := by
  rw [PhiA1_eq, show (dat1 V c).Φ (Fin.last cfg1.N) = PhiS1 V c _ (Fin.last cfg1.N).is_le from rfl]; unfold PhiS1 inv1
  iintro ⟨⟨⟨%xs, %_, HS⟩, HR⟩, Hg⟩
  iframe HR Hg
  iexists _; iexact HS

end Cert.KernelIdeal.Gen

end
-- ==== Proof.KIRegion2.lean ====
import proofs.«431135_j8108898255053_1_alg».proof.Proof.Gen.KernelIdeal.Launch
import proofs.«431135_j8108898255053_1_alg».proof.Proof.Gen.KernelIdeal.Skeleton
import proofs.«431135_j8108898255053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x128 := Rect.unit (s := S5000x128) ![0, 0] S5000x128.size inb_S5000x128_S5000x128_0_0
abbrev r2_1 : Rect S128x128 := Rect.unit (s := S128x128) ![0, 0] S128x128.size inb_S128x128_S128x128_0_0
abbrev r2_2 : Rect S128 := Rect.unit (s := S128) ![0] S128.size inb_S128_S128_0

noncomputable def out2_6 (x0 : Vec F S5000x128 .f32) (x1 : Vec F S5000x128 .f32) (x2 : Vec F S128x128 .f32) (x3 : Vec F S128 .f32)
    (x4 : Vec F S128x128 .f32) (x5 : Vec F S128 .f32) : Vec F S5000x128 .f32 :=
  View.canon [⟨r2_0, k2_pay1 (View.ld x0 r2_0) (View.ld x1 r2_0) (View.ld x2 r2_1) (View.ld x4 r2_1) (View.ld x3 r2_2) (View.ld x5 r2_2)⟩]

noncomputable def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2 (c : Dev nD) (t : Fin cfg2.N) : ∀ w : Fin cfg2.W, w ≠ 6 → ∀ d, (dat2 V c).before w t d = (dat2 V c).after w t
  | ⟨6, _⟩, h, _ => absurd rfl h
  | ⟨0, _⟩, _, d | ⟨1, _⟩, _, d | ⟨2, _⟩, _, d | ⟨3, _⟩, _, d | ⟨4, _⟩, _, d | ⟨5, _⟩, _, d =>
    ((dat2 V c).before_in_eq_fetched _ rfl (fun _ => rfl) (fun _ _ _ => rfl) (fun _ => by dsimp only [dat2]; rfl) t d).trans
      (by dsimp only [dat2]; unfold Dat.fetched Dat.blockOf iblk2; rfl)

theorem body_obligation2 (c : Dev nD) : BodyObligation (dat2 (F := F) V c) (defs₀ (F := F)) Variants.none () Set.univ := fun t => by
  rw [bigSep_W2, bigSep_W2]
  simp (disch := decide) only [before2 V c t]
  dsimp only [dat2, Dat.owesAt, Dat.bound]
  show _ ⊢ wp _ _ _ (bodyAt2 t) _
  unfold bodyAt2
  generalize iblk2 V c 0 t = x0, iblk2 V c 1 t = x1, iblk2 V c 2 t = x2, iblk2 V c 3 t = x3, iblk2 V c 4 t = x4, iblk2 V c 5 t = x5
  simp only [cc2__mlp_kernel_eq_skeleton]; unfold cc2__mlp_kernel_skel
  conv_lhs => unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩⟩
  subst hf0 hf1 hf2 hf3 hf4 hf5
  sl_exec
  sl_step
  iframe HΦ Ho
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  unfold owns
  iexists _; isplitr
  swap; · iexact H6
  ipureintro
  exact View.read_writes_eq_canon _ _ _ (View.cover_of_tiled _ S5000x128.size (by rfl))

theorem hin2 (c : Dev nD) : Pipeline.ΦA spec2 c ⊢ (dat2 V c).Φ 0 := Entails.refl _

theorem hout2 (c : Dev nD) : (dat2 V c).Φ (Fin.last cfg2.N) ⊢ Pipeline.ΦA spec2 c := Entails.refl _

end Cert.KernelIdeal.Gen

end
-- ==== Proof.KIRegion3.lean ====
import proofs.«431135_j8108898255053_1_alg».proof.Proof.Gen.KernelIdeal.Launch
import proofs.«431135_j8108898255053_1_alg».proof.Proof.Gen.KernelIdeal.Skeleton
import proofs.«431135_j8108898255053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 25 = 0 :=
  (by decide +kernel : ∀ t : Fin grid3.N, cond3_0 (grid3.coords t) ↔ t.val % 25 = 0)

abbrev cond3_1 (i : grid3.Coords) : Prop := k3_cond2 i = 1#1
theorem hcond3_1 : ∀ t : Fin cfg3.N, cond3_1 (grid3.coords t) ↔ t.val % 25 = 24 :=
  (by decide +kernel : ∀ t : Fin grid3.N, cond3_1 (grid3.coords t) ↔ t.val % 25 = 24)

theorem idleAt3_2 : ∀ t : Fin cfg3.N, ¬ t.val % 25 = 24 → cfg3.idle 2 (grid3.coords t) = true :=
  (by decide +kernel : ∀ t : Fin grid3.N, ¬ t.val % 25 = 24 → idle3 2 (grid3.coords t) = true)

abbrev scM3_0 : Memref sig .tc .vmem S6400x128 .f32 := Memref.whole cc3_scratch0

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hz3 : (![0, 0] : Fin 2 → Nat) = fun _ => 0 := funext fun a => by fin_cases a <;> rfl

set_option maxHeartbeats 1000000 in
/-- The body as one triple: the point's product is added to the zero block where the first conditional holds, else to `xs`; where the second holds the output block is that sum in the output's format. -/
theorem sound_kernel3 (c : Dev nD) (E : Set ℕ) (i : grid3.Coords)
    (arg2 : Memref sig .tc .vmem S6400x1 .i32) (harg2 : arg2.IsWhole) (arg3 : Memref sig .tc .vmem S2000x128 .bf16) (harg3 : arg3.IsWhole)
    (arg4 : Memref sig .tc .vmem S6400x128 .bf16) (harg4 : arg4.IsWhole) (arg5 : Memref sig .tc .vmem S6400x128 .f32) (harg5 : arg5.IsWhole)
    (hc : cond3_0 i → ¬cond3_1 i)
    (x0 : Vec F S6400x1 .i32) (x1 : Vec F S2000x128 .bf16) (x2 : Vec F S6400x128 .bf16) (xs : Vec F S6400x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xs
        ∗ (iprop(owns (c : Thread nD τ) arg2 fullShare x0 ∗ owns (c : Thread nD τ) arg3 fullShare x1
            ∗ owns (c : Thread nD τ) arg4 fullShare (if cond3_1 i then k3_pay3 (k3_pay2 i x0 x1 (if cond3_0 i then k3_pay1 else xs)) else x2)
            ∗ owns (c : Thread nD τ) arg5 fullShare (k3_pay2 i x0 x1 (if cond3_0 i then k3_pay1 else xs))) -∗ K ⟨⟩))
      ⊢ wp frame (wpE (defs₀ (F := F)) Variants.none c none) E (cc3__gather_kernel i arg2 harg2 arg3 harg3 arg4 harg4 arg5 harg5) K := by
  by_cases hc0 : cond3_0 i <;> by_cases hc1 : cond3_1 i
  · exact absurd hc1 (hc hc0)
  all_goals
    first | rw [if_pos hc0] | rw [if_neg hc0]
    first | rw [if_pos hc1] | rw [if_neg hc1]
    simp only [cc3__gather_kernel_eq_skeleton]; unfold cc3__gather_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | exact hc0 | exact hc1)
    sl_step
    iapply Hk
    isplitl [H0]; rotate_left; isplitl [H1]; rotate_left; isplitl [H2]
    all_goals
      iexists _; isplitr
      swap; · first | iexact H0 | iexact H1 | iexact H2 | iexact HS
      ipureintro
      first
      | with_reducible rfl
      | (try sl_unfold_words
         refine (View.read_writes_eq_canon _ _ _ fun y => ⟨_, List.mem_cons_self, View.mem_set_unit_zero hz3 inb_S6400x128_S6400x128_0_0 y⟩).trans ?_
         simp only [View.canon_cons_unit_zero (S := S6400x128) hz3, View.readCov_unit_zero (S := S6400x128) _ hz3, View.readAt_eq_ld,
           View.ld_unit_zero (S := S6400x1) hz3, View.ld_unit_zero (S := S2000x128) hz3, View.ld_unit_zero (S := S6400x128) hz3])

noncomputable def acc3 (c : Dev nD) : (n : ℕ) → n < cfg3.N → Vec F S6400x128 .f32
  | 0, hn => k3_pay2 (grid3.coords ⟨0, hn⟩) (iblk3 V c 0 ⟨0, hn⟩) (iblk3 V c 1 ⟨0, hn⟩) k3_pay1
  | n + 1, hn => k3_pay2 (grid3.coords ⟨n + 1, hn⟩) (iblk3 V c 0 ⟨n + 1, hn⟩) (iblk3 V c 1 ⟨n + 1, hn⟩)
      (if (n + 1) % 25 = 0 then k3_pay1 else acc3 c n (Nat.lt_of_succ_lt hn))
theorem acc3_first (c : Dev nD) (t : Fin cfg3.N) (h0 : t.val % 25 = 0) :
    acc3 V c t.val t.isLt = k3_pay2 (grid3.coords t) (iblk3 V c 0 t) (iblk3 V c 1 t) k3_pay1 := by
  obtain ⟨n, hn⟩ := t
  cases n with
  | zero => exact rfl
  | succ n => exact congrArg (k3_pay2 _ _ _) (if_pos h0)
theorem acc3_next (c : Dev nD) (t : Fin cfg3.N) (h0 : ¬t.val % 25 = 0) :
    acc3 V c t.val t.isLt = k3_pay2 (grid3.coords t) (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h0
  | succ n => exact congrArg (k3_pay2 _ _ _) (if_neg h0)

/-- The invariant before position `n`: the accumulator at some contents, those of `acc3` at `n - 1` unless a run of 25 starts at `n`. -/
noncomputable def PhiS3 (c : Dev nD) (n : ℕ) (_ : n ≤ cfg3.N) : sProp 𝕄 :=
  iprop(iprop((∃ d, ⌜¬n % 25 = 0 → ∃ h, d = acc3 V c (n - 1) h⌝ ∗ owns (c : Thread nD τ) scM3_0 fullShare d)
      ∗ Pipeline.scopedRestBut (Ix := Unit) (Name := ℕ) (U := UR sig nD τ) (Lvl := ℕ) (Val := Elt F) spec3 c [cc3_scratch0]) ∗ (∃ r, prngReg c r))

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = k3_pay3 (acc3 V c t.val t.isLt) := by dsimp only [dat3]

theorem before3 (c : Dev nD) (t : Fin cfg3.N) :
    (∀ d, (dat3 V c).before 0 t d = iblk3 V c 0 t) ∧ ∀ d, (dat3 V c).before 1 t d = iblk3 V c 1 t := by
  constructor <;> exact fun d => (Dat.before_in_eq_fetched _ _ rfl (fun _ => rfl) (fun _ _ _ => rfl) (fun _ => rfl) t d).trans rfl

theorem body_obligation3 (c : Dev nD) : BodyObligation (dat3 (F := F) V c) (defs₀ (F := F)) Variants.none () Set.univ := fun t => by
  have h2 (d) : owns (c : Thread nD τ) (st3_2 t) fullShare
      (if cond3_1 (grid3.coords t) then k3_pay3 (acc3 V c t.val t.isLt) else (dat3 V c).before 2 t d) ⊢ (dat3 V c).leavesExact 2 t := by
    by_cases h1 : t.val % 25 = 24
    · rw [if_pos ((hcond3_1 t).mpr h1)]; unfold Dat.leavesExact; rw [(flush3_2 t).2 h1]; cases cfg3.idle 2 (grid3.coords t) <;> exact .rfl
    · rw [if_neg (mt (hcond3_1 t).mp h1), Dat.leavesExact_idle _ 2 t (idleAt3_2 t h1) (Bool.eq_false_iff.2 (mt (flush3_2 t).1 h1))]
      iintro H; iexists d; iexact H
  rw [bigSep_W3, bigSep_W3]
  simp only [show ∀ s, (dat3 V c).Φ s = PhiS3 V c s.val (Nat.le_of_lt_succ s.isLt) from fun _ => rfl, (before3 V c t).1, (before3 V c t).2]
  change _ ⊢ wp frame _ _ (bodyAt3 t) _
  unfold PhiS3 bodyAt3
  iintro ⟨⟨⟨⟨%xs, %hxs, HS⟩, HR⟩, Hg⟩, Ho, ⟨%d0, H0⟩, ⟨%d1, H1⟩, ⟨%d2, H2⟩⟩
  have hacc : k3_pay2 (grid3.coords t) (iblk3 V c 0 t) (iblk3 V c 1 t) (if cond3_0 (grid3.coords t) then k3_pay1 else xs)
      = acc3 V c t.val t.isLt := by
    by_cases h0 : t.val % 25 = 0
    · rw [if_pos ((hcond3_0 t).mpr h0), acc3_first V c t h0]
    · obtain ⟨h, rfl⟩ := hxs h0
      rw [if_neg (mt (hcond3_0 t).mp h0), acc3_next V c t h0]; rfl
  iapply (sound_kernel3 c Set.univ (grid3.coords t) _ _ _ _ _ _ _ _
    (fun a b => by have := (hcond3_0 t).mp a; have := (hcond3_1 t).mp b; omega) (iblk3 V c 0 t) (iblk3 V c 1 t) _ xs _)
  iframe H0 H1 H2 HS
  iintro ⟨H0, H1, H2, HS⟩
  rw [hacc]
  isplitl [HS HR Hg]
  · iframe HR Hg; iexists _; isplitr
    swap; · iexact HS
    ipureintro; exact fun _ => ⟨t.isLt, rfl⟩
  isplitl [Ho]; · iexact Ho
  isplitl [H0]; · iexact H0
  isplitl [H1]; · iexact H1
  iapply h2 d2; iexact H2

theorem hin3 (c : Dev nD) : Pipeline.ΦA spec3 c ⊢ (dat3 V c).Φ 0 := by
  rw [PhiA3_eq, show (dat3 V c).Φ 0 = PhiS3 V c 0 (Nat.zero_le _) from rfl]; unfold PhiS3
  iintro ⟨⟨⟨%d, HS⟩, HR⟩, Hg⟩
  iframe HR Hg; iexists d; isplitr; · ipureintro; exact fun h => absurd rfl h
  iexact HS

theorem hout3 (c : Dev nD) : (dat3 V c).Φ (Fin.last cfg3.N) ⊢ Pipeline.ΦA spec3 c := by
  rw [PhiA3_eq, show (dat3 V c).Φ (Fin.last cfg3.N) = PhiS3 V c cfg3.N (Nat.le_refl _) from rfl]; unfold PhiS3
  iintro ⟨⟨⟨%d, -, HS⟩, HR⟩, Hg⟩
  iframe HR Hg; iexists d; iexact HS

end Cert.KernelIdeal.Gen

end
-- ==== Proof.KIRegion4.lean ====
import proofs.«431135_j8108898255053_1_alg».proof.Proof.Gen.KernelIdeal.Launch
import proofs.«431135_j8108898255053_1_alg».proof.Proof.Gen.KernelIdeal.Skeleton
import proofs.«431135_j8108898255053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 94 = 0 :=
  (by decide +kernel : ∀ t : Fin grid4.N, cond4_0 (grid4.coords t) ↔ t.val % 94 = 0)

abbrev cond4_1 (i : grid4.Coords) : Prop := k4_cond2 i = 1#1
theorem hcond4_1 : ∀ t : Fin cfg4.N, cond4_1 (grid4.coords t) ↔ t.val % 94 = 93 :=
  (by decide +kernel : ∀ t : Fin grid4.N, cond4_1 (grid4.coords t) ↔ t.val % 94 = 93)

theorem idleAt4_2 : ∀ t : Fin cfg4.N, ¬cond4_1 (grid4.coords t) → cfg4.idle 2 (grid4.coords t) = true :=
  (by decide +kernel : ∀ t : Fin grid4.N, ¬cond4_1 (grid4.coords t) → idle4 2 (grid4.coords t) = true)
theorem noFlush4_2 : ∀ t : Fin cfg4.N, ¬cond4_1 (grid4.coords t) → (cfg4.win 2).flush t = false :=
  (by decide +kernel : ∀ t : Fin grid4.N, ¬cond4_1 (grid4.coords t) → win4_2.flush t = false)
theorem liveAt4_2 : ∀ t : Fin cfg4.N, cond4_1 (grid4.coords t) → cfg4.idle 2 (grid4.coords t) = false :=
  (by decide +kernel : ∀ t : Fin grid4.N, cond4_1 (grid4.coords t) → idle4 2 (grid4.coords t) = false)

abbrev scM4_0 : Memref sig .tc .vmem S2000x128 .f32 := Memref.whole cc4_scratch0

noncomputable def inv4 (c : Dev nD) (S : sProp 𝕄) : sProp 𝕄 :=
  iprop(iprop(S ∗ Pipeline.scopedRestBut (Ix := Unit) (Name := ℕ) (U := UR sig nD τ) (Lvl := ℕ) (Val := Elt F) spec4 c [cc4_scratch0]) ∗ (∃ r, prngReg c r))

theorem PhiA4_eq (c : Dev nD) :
    (Pipeline.ΦA spec4 c : sProp 𝕄) = inv4 c iprop(∃ d, owns (c : Thread nD τ) scM4_0 fullShare d) := by
  unfold Pipeline.ΦA; rw [scopedRest4_split]; simp only [scM4_0, owns_whole]; try rfl

theorem zero4 : (![0, 0] : Fin 2 → ℕ) = fun _ => 0 := funext fun a => by fin_cases a <;> rfl

theorem cover4 (p : Vec F S2000x128 .f32) (L : List (View.Piece (Elt F) S2000x128 .f32)) (y : S2000x128.Idx) :
    ∃ pc ∈ ((⟨Rect.unit (s := S2000x128) ![0, 0] S2000x128.size inb_S2000x128_S2000x128_0_0, p⟩ : View.Piece (Elt F) S2000x128 .f32) :: L),
      y ∈ pc.1.set :=
  ⟨_, List.mem_cons_self .., View.mem_set_unit_zero zero4 inb_S2000x128_S2000x128_0_0 y⟩

-- One step of the accumulation: it restarts from zero at the first point of a run, this point's one-hot product is added, and at the last point of a run the sum is also written out.
theorem kernel4 (c : Dev nD) (E : Set ℕ) (t : Fin cfg4.N)
    (arg2 : Memref sig .tc .vmem S1x6400 .i32) (harg2 : arg2.IsWhole) (arg3 : Memref sig .tc .vmem S6400x128 .bf16) (harg3 : arg3.IsWhole)
    (arg4 : Memref sig .tc .vmem S2000x128 .f32) (harg4 : arg4.IsWhole) (arg5 : Memref sig .tc .vmem S2000x128 .f32) (harg5 : arg5.IsWhole)
    (x0 : Vec F S1x6400 .i32) (x1 : Vec F S6400x128 .bf16) (y xs : Vec F S2000x128 .f32) (K : PUnit → sProp 𝕄) :
    iprop(owns (c : Thread nD τ) arg2 fullShare x0 ∗ owns (c : Thread nD τ) arg3 fullShare x1 ∗ owns (c : Thread nD τ) arg4 fullShare y
        ∗ owns (c : Thread nD τ) arg5 fullShare xs
        ∗ (iprop(owns (c : Thread nD τ) arg2 fullShare x0 ∗ owns (c : Thread nD τ) arg3 fullShare x1
            ∗ owns (c : Thread nD τ) arg4 fullShare
              (if t.val % 94 = 93 then k4_pay2 (grid4.coords t) x0 x1 (if t.val % 94 = 0 then k4_pay1 else xs) else y)
            ∗ owns (c : Thread nD τ) arg5 fullShare (k4_pay2 (grid4.coords t) x0 x1 (if t.val % 94 = 0 then k4_pay1 else xs))) -∗ K ⟨⟩))
      ⊢ wp frame (wpE (defs₀ (F := F)) Variants.none c none) E
          (cc4__scatter_kernel (grid4.coords t) arg2 harg2 arg3 harg3 arg4 harg4 arg5 harg5) K := by
  by_cases h0 : t.val % 94 = 0 <;> by_cases h1 : t.val % 94 = 93
  · omega
  all_goals
    first | rw [if_pos h0] | rw [if_neg h0]
    first | rw [if_pos h1] | rw [if_neg h1]
    simp only [cc4__scatter_kernel_eq_skeleton]
    unfold cc4__scatter_kernel_skel owns
    iintro ⟨⟨%f0, %hf0, H0⟩, ⟨%f1, %hf1, H1⟩, ⟨%f2, %hf2, H2⟩, ⟨%fs, %hfs, HS⟩, Hk⟩
    subst hf0 hf1 hf2 hfs
    sl_exec (disch := first | sl_exact (hcond4_0 t).mpr h0 | sl_exact (hcond4_0 t).not.mpr h0 | sl_exact (hcond4_1 t).mpr h1 | sl_exact (hcond4_1 t).not.mpr h1)
    sl_step
    iapply Hk
    isplitl [H0]; swap; isplitl [H1]; swap; isplitl [H2]
    all_goals
      iexists _; isplitr; swap; · iassumption
      ipureintro
      first
      | with_reducible rfl
      | try sl_unfold_words
        rw [View.read_writes_eq_canon _ _ _ (cover4 _ _), View.canon_cons_unit_zero (Val := Elt F) (S := S2000x128) zero4]
        simp only [View.readCov_unit_zero (Val := Elt F) (S := S2000x128) _ zero4, View.readAt_eq_ld, View.ld_unit_zero (S := S1x6400) zero4,
          View.ld_unit_zero (S := S6400x128) zero4, View.ld_unit_zero (S := S2000x128) zero4]

noncomputable def acc4 (c : Dev nD) : (n : ℕ) → n < cfg4.N → Vec F S2000x128 .f32
  | 0, hn => k4_pay2 (grid4.coords ⟨0, hn⟩) (iblk4 V c 0 ⟨0, hn⟩) (iblk4 V c 1 ⟨0, hn⟩) k4_pay1
  | n + 1, hn => k4_pay2 (grid4.coords ⟨n + 1, hn⟩) (iblk4 V c 0 ⟨n + 1, hn⟩) (iblk4 V c 1 ⟨n + 1, hn⟩)
      (if (n + 1) % 94 = 0 then k4_pay1 else acc4 c n (Nat.lt_of_succ_lt hn))

theorem acc4_first (c : Dev nD) (t : Fin cfg4.N) (h0 : t.val % 94 = 0) :
    acc4 V c t.val t.isLt = k4_pay2 (grid4.coords t) (iblk4 V c 0 t) (iblk4 V c 1 t) k4_pay1 := by
  obtain ⟨_ | n, hn⟩ := t
  · rfl
  · exact congrArg (k4_pay2 _ _ _) (if_pos h0)

theorem acc4_next (c : Dev nD) (t : Fin cfg4.N) (h0 : ¬t.val % 94 = 0) :
    acc4 V c t.val t.isLt = k4_pay2 (grid4.coords t) (iblk4 V c 0 t) (iblk4 V c 1 t)
      (acc4 V c (t.val - 1) (Nat.lt_of_le_of_lt (Nat.sub_le _ _) t.isLt)) := by
  obtain ⟨_ | n, hn⟩ := t
  · exact absurd (Nat.zero_mod _) h0
  · exact congrArg (k4_pay2 _ _ _) (if_neg h0)

-- Before point n the accumulator holds what point n - 1 left; before the first point it may hold anything.
noncomputable def PhiS4 (c : Dev nD) (n : ℕ) (h : n ≤ cfg4.N) : sProp 𝕄 :=
  inv4 c iprop(∃ xs, ⌜∀ hn : n ≠ 0, xs = acc4 V c (n - 1) (by omega)⌝ ∗ owns (c : Thread nD τ) scM4_0 fullShare xs)

noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = acc4 V c t.val t.isLt := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

-- Each point takes the invariant before it to the invariant after it and leaves every block as the proof data say.
theorem sound_body4 (c : Dev nD) (t : Fin cfg4.N) :
    iprop((dat4 V c).Φ t.castSucc ∗ (dat4 V c).owesAt () t.castSucc
      ∗ (∃ d, owns (c : Thread nD τ) (st4_0 t) fullShare ((dat4 V c).before 0 t d))
      ∗ (∃ d, owns (c : Thread nD τ) (st4_1 t) fullShare ((dat4 V c).before 1 t d))
      ∗ (∃ d, owns (c : Thread nD τ) (st4_2 t) fullShare ((dat4 V c).before 2 t d)))
    ⊢ wp frame (wpE (defs₀ (F := F)) Variants.none c none) Set.univ (bodyAt4 t) fun _ =>
      iprop((dat4 V c).Φ t.succ ∗ (dat4 V c).owesAt () t.succ
        ∗ (dat4 V c).leavesExact 0 t ∗ (dat4 V c).leavesExact 1 t ∗ (dat4 V c).leavesExact 2 t) := by
  simp only [before4_0, before4_1]
  have ha : ∀ xs, (∀ hn : t.val ≠ 0, xs = acc4 V c (t.val - 1) (by omega)) →
      k4_pay2 (grid4.coords t) (iblk4 V c 0 t) (iblk4 V c 1 t) (if t.val % 94 = 0 then k4_pay1 else xs)
        = acc4 V c t.val t.isLt := fun xs hx => by
    by_cases h0 : t.val % 94 = 0
    · rw [if_pos h0, acc4_first V c t h0]
    · rw [if_neg h0, acc4_next V c t h0, hx fun e => h0 (by rw [e])]
  have hL : ∀ d, owns (c : Thread nD τ) (st4_2 t) fullShare
      (if t.val % 94 = 93 then acc4 V c t.val t.isLt else (dat4 V c).before 2 t d) ⊢ (dat4 V c).leavesExact 2 t := fun d => by
    by_cases h1 : t.val % 94 = 93
    · rw [if_pos h1]; unfold Dat.leavesExact; rw [liveAt4_2 t ((hcond4_1 t).mpr h1)]; exact .rfl
    · have hc := (hcond4_1 t).not.mpr h1
      rw [if_neg h1, Dat.leavesExact_idle _ 2 t (idleAt4_2 t hc) (noFlush4_2 t hc)]; iintro H; iexists d; iexact H
  rw [show (dat4 V c).Φ t.castSucc = PhiS4 V c t.val (Nat.le_of_lt t.isLt) from rfl,
    show (dat4 V c).Φ t.succ = PhiS4 V c (t.val + 1) t.isLt from rfl]
  unfold PhiS4 inv4
  iintro ⟨⟨⟨⟨%xs, %hx, HS⟩, HR⟩, Hg⟩, Ho, ⟨%d0, H0⟩, ⟨%d1, H1⟩, ⟨%d2, H2⟩⟩
  iapply (kernel4 c Set.univ t _ _ _ _ _ _ _ _ (iblk4 V c 0 t) (iblk4 V c 1 t) _ xs _)
  isplitl [H0]; · iexact H0
  isplitl [H1]; · iexact H1
  isplitl [H2]; · iexact H2
  isplitl [HS]; · iexact HS
  rw [ha xs hx]
  iintro ⟨H0, H1, H2, HS⟩
  iframe HR Hg
  isplitl [HS]
  · iexists _; isplitr; swap; · iexact HS
    ipureintro; exact fun _ => rfl
  isplitl [Ho]; · iexact Ho
  isplitl [H0]; · iexact H0
  isplitl [H1]; · iexact H1
  iapply (hL d2); iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [PhiA4_eq]; show _ ⊢ PhiS4 V c 0 (Nat.zero_le _); unfold PhiS4 inv4
  iintro ⟨⟨⟨%d, HS⟩, HR⟩, Hg⟩
  iframe HR Hg
  iexists d; isplitr; · ipureintro; exact fun h => absurd rfl h
  iexact HS

theorem hout4 (c : Dev nD) : (dat4 V c).Φ (Fin.last cfg4.N) ⊢ Pipeline.ΦA spec4 c := by
  rw [PhiA4_eq, show (dat4 V c).Φ (Fin.last cfg4.N) = PhiS4 V c _ (Fin.last cfg4.N).is_le from rfl]; unfold PhiS4 inv4
  iintro ⟨⟨⟨%xs, %_, HS⟩, HR⟩, Hg⟩
  iframe HR Hg
  iexists _; iexact HS

end Cert.KernelIdeal.Gen

end
-- ==== Proof.KIRegion5.lean ====
import proofs.«431135_j8108898255053_1_alg».proof.Proof.Gen.KernelIdeal.Launch
import proofs.«431135_j8108898255053_1_alg».proof.Proof.Gen.KernelIdeal.Skeleton
import proofs.«431135_j8108898255053_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0
abbrev r5_2 : Rect S128 := Rect.unit (s := S128) ![0] S128.size inb_S128_S128_0

noncomputable def out5_6 (x0 : Vec F S5000x128 .f32) (x1 : Vec F S5000x128 .f32) (x2 : Vec F S128x128 .f32) (x3 : Vec F S128 .f32)
    (x4 : Vec F S128x128 .f32) (x5 : Vec F S128 .f32) : Vec F S5000x128 .f32 :=
  View.canon [⟨r5_0, k5_pay1 (View.ld x0 r5_0) (View.ld x1 r5_0) (View.ld x2 r5_1) (View.ld x4 r5_1) (View.ld x3 r5_2) (View.ld x5 r5_2)⟩]

noncomputable def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5 (c : Dev nD) (t : Fin cfg5.N) : ∀ w : Fin cfg5.W, w ≠ 6 → ∀ d, (dat5 V c).before w t d = (dat5 V c).after w t
  | ⟨6, _⟩, h, _ => absurd rfl h
  | ⟨0, _⟩, _, d | ⟨1, _⟩, _, d | ⟨2, _⟩, _, d | ⟨3, _⟩, _, d | ⟨4, _⟩, _, d | ⟨5, _⟩, _, d =>
    ((dat5 V c).before_in_eq_fetched _ rfl (fun _ => rfl) (fun _ _ _ => rfl) (fun _ => by dsimp only [dat5]; rfl) t d).trans
      (by dsimp only [dat5]; unfold Dat.fetched Dat.blockOf iblk5; rfl)

theorem body_obligation5 (c : Dev nD) : BodyObligation (dat5 (F := F) V c) (defs₀ (F := F)) Variants.none () Set.univ := fun t => by
  rw [bigSep_W5, bigSep_W5]
  simp (disch := decide) only [before5 V c t]
  dsimp only [dat5, Dat.owesAt, Dat.bound]
  show _ ⊢ wp _ _ _ (bodyAt5 t) _
  unfold bodyAt5
  generalize iblk5 V c 0 t = x0, iblk5 V c 1 t = x1, iblk5 V c 2 t = x2, iblk5 V c 3 t = x3, iblk5 V c 4 t = x4, iblk5 V c 5 t = x5
  simp only [cc5__mlp_kernel_eq_skeleton]; unfold cc5__mlp_kernel_skel
  conv_lhs => unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, -, H6⟩⟩
  subst hf0 hf1 hf2 hf3 hf4 hf5
  sl_exec
  sl_step
  iframe HΦ Ho
  isplitl [H0]; · iapply owns_intro; iexact H0
  isplitl [H1]; · iapply owns_intro; iexact H1
  isplitl [H2]; · iapply owns_intro; iexact H2
  isplitl [H3]; · iapply owns_intro; iexact H3
  isplitl [H4]; · iapply owns_intro; iexact H4
  isplitl [H5]; · iapply owns_intro; iexact H5
  unfold owns
  iexists _; isplitr
  swap; · iexact H6
  ipureintro
  exact View.read_writes_eq_canon _ _ _ (View.cover_of_tiled _ S5000x128.size (by rfl))

theorem hin5 (c : Dev nD) : Pipeline.ΦA spec5 c ⊢ (dat5 V c).Φ 0 := Entails.refl _

theorem hout5 (c : Dev nD) : (dat5 V c).Φ (Fin.last cfg5.N) ⊢ Pipeline.ΦA spec5 c := Entails.refl _

end Cert.KernelIdeal.Gen

end
-- ==== Proof.KIRun.lean ====
import proofs.«431135_j8108898255053_1_alg».proof.Proof.KIRegion0
import proofs.«431135_j8108898255053_1_alg».proof.Proof.KIRegion1
import proofs.«431135_j8108898255053_1_alg».proof.Proof.KIRegion2
import proofs.«431135_j8108898255053_1_alg».proof.Proof.KIRegion3
import proofs.«431135_j8108898255053_1_alg».proof.Proof.KIRegion4
import proofs.«431135_j8108898255053_1_alg».proof.Proof.KIRegion5
import proofs.«431135_j8108898255053_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A call leaves every buffer that is not one of its output arrays as it found it. -/
theorem keep {p : Fin 6} (l : Pipeline.LaunchFacts (nD := nD) (τ := τ) cfgs p) (c : Dev nD) (V : Valuation τ sig (Elt F))
    (d : Dat τ (Elt F) Unit ℕ (UR sig nD τ) ℕ (cfgs p) c)
    (hA : ∀ w, d.A w = V (Proc.devRef .tc (Pipeline.arrRef (cfgs p).spec w))) (b : Ref sig .tc)
    (h : ∀ w, Pipeline.arrRef (cfgs p).spec w = b → ((cfgs p).win w).isOut = false) :
    Pipeline.withArrays (cfgs p).spec c V (fun w => d.arrAt w (cfgs p).N) (Proc.devRef .tc b) = V (Proc.devRef .tc b) := by
  by_cases hb : ∃ w, Pipeline.arrRef (cfgs p).spec w = b
  · obtain ⟨w, rfl⟩ := hb
    rw [Pipeline.withArrays_arr _ l.win.arr_inj]
    exact (d.arrAt_in w (h w rfl) _).trans (hA w)
  · exact Pipeline.withArrays_of_ne _ c _ _ b fun w e => hb ⟨w, e⟩

abbrev En0 : (c : Dev nD) → (b : Ref sig .tc) → Buf (Elt F) ((c : Thread nD τ).loc b) := fun c b => V5 m c b
noncomputable def B1 (c : Dev nD) : Valuation τ sig (Elt F) :=
  Pipeline.withArrays spec0 c (V5 m c) fun w => (dat0 (En0 m) c).arrAt w cfg0.N
theorem B1_arr (c : Dev nD) (w : Fin cfg0.W) :
    B1 m c (Proc.devRef .tc (Pipeline.arrRef spec0 w)) = (dat0 (En0 m) c).arrAt w cfg0.N :=
  Pipeline.withArrays_arr spec0 launch0.win.arr_inj c _ _ w
theorem B1_keep (c : Dev nD) (b : Ref sig .tc) (h : ∀ w, Pipeline.arrRef spec0 w = b → (cfg0.win w).isOut = false) :
    B1 m c (Proc.devRef .tc b) = V5 m c (Proc.devRef .tc b) :=
  keep launch0 c _ _ (A_eq0 (En0 m) c) b h

abbrev En1 : (c : Dev nD) → (b : Ref sig .tc) → Buf (Elt F) ((c : Thread nD τ).loc b) := fun c b => B1 m c b
noncomputable def B2 (c : Dev nD) : Valuation τ sig (Elt F) :=
  Pipeline.withArrays spec1 c (B1 m c) fun w => (dat1 (En1 m) c).arrAt w cfg1.N
theorem B2_arr (c : Dev nD) (w : Fin cfg1.W) :
    B2 m c (Proc.devRef .tc (Pipeline.arrRef spec1 w)) = (dat1 (En1 m) c).arrAt w cfg1.N :=
  Pipeline.withArrays_arr spec1 launch1.win.arr_inj c _ _ w
theorem B2_keep (c : Dev nD) (b : Ref sig .tc) (h : ∀ w, Pipeline.arrRef spec1 w = b → (cfg1.win w).isOut = false) :
    B2 m c (Proc.devRef .tc b) = B1 m c (Proc.devRef .tc b) :=
  keep launch1 c _ _ (A_eq1 (En1 m) c) b h

abbrev En2 : (c : Dev nD) → (b : Ref sig .tc) → Buf (Elt F) ((c : Thread nD τ).loc b) := fun c b => B2 m c b
noncomputable def B3 (c : Dev nD) : Valuation τ sig (Elt F) :=
  Pipeline.withArrays spec2 c (B2 m c) fun w => (dat2 (En2 m) c).arrAt w cfg2.N
theorem B3_arr (c : Dev nD) (w : Fin cfg2.W) :
    B3 m c (Proc.devRef .tc (Pipeline.arrRef spec2 w)) = (dat2 (En2 m) c).arrAt w cfg2.N :=
  Pipeline.withArrays_arr spec2 launch2.win.arr_inj c _ _ w
theorem B3_keep (c : Dev nD) (b : Ref sig .tc) (h : ∀ w, Pipeline.arrRef spec2 w = b → (cfg2.win w).isOut = false) :
    B3 m c (Proc.devRef .tc b) = B2 m c (Proc.devRef .tc b) :=
  keep launch2 c _ _ (A_eq2 (En2 m) c) b h
abbrev H3 : Dev nD → Valuation τ sig (Elt F) := fun c => StableHlo.after hostOps3 (B3 m c)
theorem H3_of (c : Dev nD) (r : Ref sig .tc) (h : r ∉ hostOps3_W) : H3 m c r = B3 m c r :=
  StableHlo.after_of_writes_sub hostOps3 _ hostOps3_writes h

abbrev En3 : (c : Dev nD) → (b : Ref sig .tc) → Buf (Elt F) ((c : Thread nD τ).loc b) := fun c b => H3 m c b
noncomputable def B4 (c : Dev nD) : Valuation τ sig (Elt F) :=
  Pipeline.withArrays spec3 c (H3 m c) fun w => (dat3 (En3 m) c).arrAt w cfg3.N
theorem B4_arr (c : Dev nD) (w : Fin cfg3.W) :
    B4 m c (Proc.devRef .tc (Pipeline.arrRef spec3 w)) = (dat3 (En3 m) c).arrAt w cfg3.N :=
  Pipeline.withArrays_arr spec3 launch3.win.arr_inj c _ _ w
theorem B4_keep (c : Dev nD) (b : Ref sig .tc) (h : ∀ w, Pipeline.arrRef spec3 w = b → (cfg3.win w).isOut = false) :
    B4 m c (Proc.devRef .tc b) = H3 m c (Proc.devRef .tc b) :=
  keep launch3 c _ _ (A_eq3 (En3 m) c) b h

abbrev En4 : (c : Dev nD) → (b : Ref sig .tc) → Buf (Elt F) ((c : Thread nD τ).loc b) := fun c b => B4 m c b
noncomputable def B5 (c : Dev nD) : Valuation τ sig (Elt F) :=
  Pipeline.withArrays spec4 c (B4 m c) fun w => (dat4 (En4 m) c).arrAt w cfg4.N
theorem B5_arr (c : Dev nD) (w : Fin cfg4.W) :
    B5 m c (Proc.devRef .tc (Pipeline.arrRef spec4 w)) = (dat4 (En4 m) c).arrAt w cfg4.N :=
  Pipeline.withArrays_arr spec4 launch4.win.arr_inj c _ _ w
theorem B5_keep (c : Dev nD) (b : Ref sig .tc) (h : ∀ w, Pipeline.arrRef spec4 w = b → (cfg4.win w).isOut = false) :
    B5 m c (Proc.devRef .tc b) = B4 m c (Proc.devRef .tc b) :=
  keep launch4 c _ _ (A_eq4 (En4 m) c) b h

abbrev En5 : (c : Dev nD) → (b : Ref sig .tc) → Buf (Elt F) ((c : Thread nD τ).loc b) := fun c b => B5 m c b
noncomputable def B6 (c : Dev nD) : Valuation τ sig (Elt F) :=
  Pipeline.withArrays spec5 c (B5 m c) fun w => (dat5 (En5 m) c).arrAt w cfg5.N

noncomputable def pdats : (p : Fin 6) → (c : Dev nD) → Dat τ (Elt F) Unit ℕ (UR sig nD τ) ℕ (Pipeline.pin (pcfgs (F := F)) adm p) c
  | ⟨0, _⟩ => dat0 (En0 m)
  | ⟨1, _⟩ => dat1 (En1 m)
  | ⟨2, _⟩ => dat2 (En2 m)
  | ⟨3, _⟩ => dat3 (En3 m)
  | ⟨4, _⟩ => dat4 (En4 m)
  | ⟨5, _⟩ => dat5 (En5 m)

theorem pd (c : Dev nD) : ∀ p : Fin 6, (∀ w, (pdats m p c).q w = fullShare) ∧ (∀ t, (pdats m p c).owed t = 0) ∧ ∀ x, x ∈ (pdats m p c).recorded 0
  | ⟨0, _⟩ | ⟨1, _⟩ | ⟨2, _⟩ | ⟨3, _⟩ | ⟨4, _⟩ | ⟨5, _⟩ => ⟨fun _ => rfl, fun _ => rfl, fun _ => trivial⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- A call as an item: its arrays are taken out of the valuation V it finds and put back at their final contents. -/
noncomputable def reg {p : Fin 6} (l : Pipeline.LaunchFacts (nD := nD) (τ := τ) cfgs p) (V : Dev nD → Valuation τ sig (Elt F))
    (hA : ∀ c w, (pdats m p c).A w = V c (Proc.devRef .tc (Pipeline.arrRef (cfgs p).spec w)))
    (hbd : ∀ c, BodyObligation (pdats m p c) (defs₀ (F := F)) Variants.none () Set.univ)
    (hI : ∀ c, Pipeline.ΦA (cfgs p).spec c ⊢ (pdats m p c).Φ 0)
    (hO : ∀ c, (pdats m p c).Φ (Fin.last (cfgs p).N) ⊢ Pipeline.ΦA (cfgs p).spec c) :
    Pipeline.RegionSeg (pcfgs (F := F)) adm (pdats m) () defs₀ 𝒱₀ L lv p where
  win := l.win.to₀
  block_pos := l.block_pos
  stage_whole := l.stage_whole
  K := PEmpty
  osem k := k.elim
  ho := Pipeline.OwnSemFacts.none _
  hbody c := (hbd c).loose
  hwaits := Pipeline.hwaits_of_owed_zero _ _ _ _ L lv p fun c => (pd m c p).2.1
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pdats m p c).arrAt w (cfgs p).N) ∗ R c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (p := p) (pcfgs (F := F)) adm (pdats m) l.win l.arr_whole c
      ((pdats m p c).share_full (pd m c p).1) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [(pd m c p).2.1]
      icases HO with ⟨%W, HO⟩; iexists W; isplitr; · ipureintro; exact fun x _ => Or.inl ((pd m c p).2.2 x)
      iexact HO
    isplitl [Hp]; · iexact Hp
    iexact Hrest
  hin c := by
    refine BIBase.Entails.trans ?_ (hI c)
    unfold Pipeline.ΦA
    iintro ⟨Hp, -, Hr⟩
    isplitl [Hr] <;> iassumption
  hout c := by
    rw [Pipeline.ownSems0_none]
    refine BIBase.Entails.trans (hO c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm l.win l.arr_whole c (pdats m)
      ((pdats m p c).share_full (pd m c p).1) (fun b => V c b)
      (fun b : Ref sig .tc => Pipeline.withArrays (cfgs p).spec c (V c) (fun w => (pdats m p c).arrAt w (cfgs p).N) b)
      ((pdats m p c).arrAt · (cfgs p).N)
      (fun w => (Pipeline.withArrays_arr _ l.win.arr_inj c (V c) (fun w => (pdats m p c).arrAt w (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pd m c p).2.1]
    icases HO with ⟨%W, -, HO⟩; iexists W; iexact HO

abbrev rsegs : List (Pipeline.Seg (pcfgs (F := F)) adm (pdats m) () defs₀ 𝒱₀ L lv) :=
  [ .host (seg0 m 𝒱₀ L lv fun _ => R), .host (seg1 m 𝒱₀ L lv fun _ => R), .host (seg2 m 𝒱₀ L lv fun _ => R),
    .host (seg3 m 𝒱₀ L lv fun _ => R), .host (seg4 m 𝒱₀ L lv fun _ => R),
    .region (reg m launch0 (V5 m) (fun _ _ => rfl) (body_obligation0 _) (hin0 _) (hout0 _)),
    .region (reg m launch1 (B1 m) (fun _ _ => rfl) (body_obligation1 _) (hin1 _) (hout1 _)),
    .region (reg m launch2 (B2 m) (fun _ _ => rfl) (body_obligation2 _) (hin2 _) (hout2 _)),
    .host (Pipeline.HostSeg.ofOps _ _ _ _ _ (Pipeline.ucRefs τ sig) hostOps3
      (fun op h => Pipeline.sub_ucRefs op (List.forall_iff_forall_mem.mp hostOps3_sub op h))
      (List.forall_iff_forall_mem.mp hostOps3_fresh) (B3 m) R),
    .region (reg m launch3 (H3 m) (fun _ _ => rfl) (body_obligation3 _) (hin3 _) (hout3 _)),
    .region (reg m launch4 (B4 m) (fun _ _ => rfl) (body_obligation4 _) (hin4 _) (hout4 _)),
    .region (reg m launch5 (B5 m) (fun _ _ => rfl) (body_obligation5 _) (hin5 _) (hout5 _)) ]

/-- Every weakly fair execution of the program terminates, and the final memory holds every buffer that outlives the calls at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (rsegs m)
    (fun c Q => by rw [main_chain c, Pipeline.Seg.run_eq_chain]; exact .rfl)
    (by simp only [rsegs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU _ : sProp 𝕄) ⊢ BI.own (emb₁ _) from .rfl)
        iexact Hu
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (B6 m c) ∗ ∃ r, prngReg c r))
    (hch := by refine ⟨?_, ?_, ?_, ?_, ?_, ?_, ?_, ?_, ?_, ?_, ?_, ?_, fun _ => Laws.sep_assoc.2⟩ <;> exact fun _ => .rfl)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- r outlives the calls, no host stretch writes it, and it is no call's output array. -/
abbrev Kept (r : Ref sig .tc) : Prop :=
  ¬ (Proc.devRef .tc r : DevRef τ sig).isScoped
    ∧ (∀ (p : Fin 6) w, Pipeline.arrRef (cfgs p).spec w = r → ((cfgs p).win w).isOut = false)
    ∧ r ∉ hostOps3_W ∧ r ∉ hostOps0_W ∧ r ∉ hostOps0_1_W ∧ r ∉ hostOps0_2_W ∧ r ∉ hostOps0_3_W ∧ r ∉ hostOps0_4_W

theorem B6_kept (c : Dev nD) (r : Ref sig .tc) {s : MemSt nD τ sig (Elt F)}
    (h : ∀ b ∈ Pipeline.ucRefs τ sig, s.mem (((c : Thread nD τ)).1, b) = B6 m c b) :
    Kept r → s.mem ((c : Thread nD τ).loc r) = m ((c : Thread nD τ).loc r)
  | ⟨u, k, hh, g0, g1, g2, g3, g4⟩ =>
    (h _ (Finset.mem_filter.mpr ⟨StableHlo.devRef_mem_tcRefs r, u⟩)).trans <| (keep launch5 c (B5 m c) (dat5 (En5 m) c) (A_eq5 (En5 m) c) r (k 5)).trans <| (B5_keep m c r (k 4)).trans <|
      (B4_keep m c r (k 3)).trans <| (H3_of m c r hh).trans <| (B3_keep m c r (k 2)).trans <| (B2_keep m c r (k 1)).trans <|
      (B1_keep m c r (k 0)).trans <| (V5_of m c r g4).trans <| (V4_of m c r g3).trans <| (V3_of m c r g2).trans <|
      (V2_of m c r g1).trans <| (V1_of m c r g0).trans rfl

theorem run_result : θ_run defs (onTc (τ := τ) (main (F := F))) ⟨m, fun _ => 0, ρ⟩ (fun r => ∀ c : Dev nD,
      r.2.mem ((c.tc : Thread nD τ).loc main_v11) = (dat5 (En5 m) c).arrAt 6 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    have k := fun r => B6_kept m c r (h c)
    ⟨(h c _ (Finset.mem_filter.mpr ⟨StableHlo.devRef_mem_tcRefs main_v11, by decide⟩)).trans (Pipeline.withArrays_arr spec5 launch5.win.arr_inj c _ _ 6),
      k main_arg0 (by decide), k main_arg1 (by decide), k main_arg2 (by decide), k main_arg3 (by decide),
      k main_arg4 (by decide), k main_arg5 (by decide), k main_arg6 (by decide), k main_arg7 (by decide),
      k main_arg8 (by decide), k main_arg9 (by decide), k main_arg10 (by decide)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.KernelIdeal.Gen

end
-- ==== Proof.KIHost.lean ====
import proofs.«431135_j8108898255053_1_alg».proof.Proof.Gen.KernelIdeal.Regions
import Idealize.ShloMosaic.Lib.StableHlo.Run
import Idealize.ShloMosaic.Lib.KernelVsHost
import Idealize.ShloMosaic.Lib.Pipeline.Value
import Idealize.ShloMosaic.Lib.ValueIdx

namespace Cert.KernelIdeal.Gen

open Idealize.ShloMosaic Idealize.ShloMosaic.TcCoe

variable {F : FTy → Type} [FloatOps F]

/-- 600000 entries followed by 1600 copies of a filler, then reshaped: the entry whose row-major rank is `e`. -/
theorem padCast_apply {α : Type} {t : Shape} (x : S600000.Idx → α) (v : S_.Idx → α)
    (h : S600000.Pads (![0] : Fin 1 → Nat) ![1600] ![0] S601600) (hu : 0 < S_.numel) (ht : S601600.ShapeCasts t)
    (j : t.Idx) (e : Fin 601600) (hj : e.val = (t.rowMajor j).val) :
    shapeCast t (pad S601600 ![0] ![1600] ![0] x v h hu) ht j
      = if hlt : e.val < 600000 then x (ValueIdx.ix1 ⟨e.val, hlt⟩) else v (Shape.Idx.first hu) := by
  rw [shapeCast_apply _ ht j (ValueIdx.ix1 e) ((Shape.rowMajor_val_one _).trans hj)]
  split
  next hlt =>
    refine pad_apply_of_inside _ _ _ x v h hu _ (ValueIdx.ix1 ⟨e.val, hlt⟩) fun a => ?_
    obtain rfl : a = 0 := Subsingleton.elim _ _
    show e.val = 0 + e.val * (0 + 1)
    omega
  next hlt =>
    refine pad_apply_of_not_inside _ _ _ x v h hu _ (0 : Fin 1) fun hin => hlt ?_
    have h3 : (e.val - 0) / (0 + 1) < 600000 := hin.2.2
    omega

variable (m : (ℓ : Loc nD τ sig) → Buf (Elt F) ℓ) (c : Dev nD)

theorem V5_v2 (e : Fin 601600) :
    (V5 m c (Proc.devRef .tc main_v2) : S601600x1.Idx → BitVec 32) (ValueIdx.ix2 e (0 : Fin 1))
      = if hlt : e.val < 600000 then (m ((c : Thread nD τ).loc main_arg1) : S600000.Idx → BitVec 32) (ValueIdx.ix1 ⟨e.val, hlt⟩)
        else 0#32 := by
  after_results
  exact padCast_apply _ _ pads_S600000_S601600_016000 h_S_ shapeCasts_S601600_S601600x1 _ e
    (by rw [Shape.rowMajor_val_two]; show e.val = e.val * 1 + 0; omega)

theorem V5_v3 (e : Fin 601600) :
    (V5 m c (Proc.devRef .tc main_v3) : S1x601600.Idx → BitVec 32) (ValueIdx.ix2 (0 : Fin 1) e)
      = if hlt : e.val < 600000 then (m ((c : Thread nD τ).loc main_arg2) : S600000.Idx → BitVec 32) (ValueIdx.ix1 ⟨e.val, hlt⟩)
        else 50000#32 := by
  after_results
  exact padCast_apply _ _ pads_S600000_S601600_016000 h_S_ shapeCasts_S601600_S1x601600 _ e
    (by rw [Shape.rowMajor_val_two]; show e.val = 0 * 601600 + e.val; omega)

theorem V5_arg (r : Ref sig .tc)
    (hr : r ∉ (hostOps0_W ++ hostOps0_1_W ++ hostOps0_2_W ++ hostOps0_3_W ++ hostOps0_4_W : List (Ref sig .tc))) :
    V5 m c (Proc.devRef .tc r) = m ((c : Thread nD τ).loc r) := by
  simp only [List.mem_append, not_or] at hr
  obtain ⟨⟨⟨⟨h0, h1⟩, h2⟩, h3⟩, h4⟩ := hr
  exact (V5_of m c r h4).trans <| (V4_of m c r h3).trans <| (V3_of m c r h2).trans <| (V2_of m c r h1).trans
    (V1_of m c r h0)

theorem V5_v4 (m : (ℓ : Loc nD τ sig) → Buf (Elt Ideal) ℓ) :
    (V5 (F := Ideal) m c (Proc.devRef .tc main_v4) : S50000x128.Idx → EReal)
      = (m ((c : Thread nD τ).loc main_arg0) : S50000x128.Idx → EReal) := by
  after_results
  exact funext fun i => ValueIdx.truncf_apply (V0 m c (Proc.devRef .tc main_arg0)) bitsLt_bf16_f32 i

end Cert.KernelIdeal.Gen
-- ==== Proof.GinSpec.lean ====
import Idealize.ShloMosaic.PureOps.Ideal
import Idealize.ShloMosaic.Lib.ValueIdx

noncomputable section

namespace Cert.GinSpec

open Idealize.ShloMosaic Idealize.ShloMosaic.ValueIdx

abbrev SX : Shape := ⟨2, ![50000, 128]⟩
abbrev SE : Shape := ⟨1, ![600000]⟩
abbrev SW : Shape := ⟨2, ![128, 128]⟩
abbrev SB : Shape := ⟨1, ![128]⟩

/-- The node a word names, clamped into the node range so that the reading is total. -/
def rowOf (w : BitVec 32) : Fin 50000 := ⟨min w.toInt.toNat 49999, by omega⟩

/-- Feature `d` summed over the source nodes of the edges that end at node `n`. -/
def agg (h : SX.Idx → EReal) (src dst : SE.Idx → BitVec 32) (n : Fin 50000) (d : Fin 128) : EReal :=
  ∑ e : Fin 600000, if (dst (ix1 e)).toInt = (n.val : ℤ) then h (ix2 (rowOf (src (ix1 e))) d) else 0

/-- `x · W + b`, row by row. -/
def lin (x : Fin 50000 → Fin 128 → EReal) (W : SW.Idx → EReal) (b : SB.Idx → EReal) (n : Fin 50000) (j : Fin 128) : EReal :=
  (∑ k : Fin 128, x n k * W (ix2 k j)) + b (ix1 j)

/-- A node's features plus its aggregate, through two linear maps with `max · 0` between them. -/
def layer (h : SX.Idx → EReal) (src dst : SE.Idx → BitVec 32) (Wa : SW.Idx → EReal) (ba : SB.Idx → EReal)
    (Wb : SW.Idx → EReal) (bb : SB.Idx → EReal) (n : Fin 50000) (j : Fin 128) : EReal :=
  lin (fun n k => max (lin (fun n k' => h (ix2 n k') + agg h src dst n k') Wa ba n k) 0) Wb bb n j

/-- The first layer followed by `max · 0`. -/
def hidden (x : SX.Idx → EReal) (src dst : SE.Idx → BitVec 32) (W1a : SW.Idx → EReal) (b1a : SB.Idx → EReal)
    (W1b : SW.Idx → EReal) (b1b : SB.Idx → EReal) : SX.Idx → EReal :=
  fun i => max (layer x src dst W1a b1a W1b b1b (i 0) (i 1)) 0

/-- The second layer applied to the first. -/
def out (x : SX.Idx → EReal) (src dst : SE.Idx → BitVec 32) (W1a : SW.Idx → EReal) (b1a : SB.Idx → EReal)
    (W1b : SW.Idx → EReal) (b1b : SB.Idx → EReal) (W2a : SW.Idx → EReal) (b2a : SB.Idx → EReal)
    (W2b : SW.Idx → EReal) (b2b : SB.Idx → EReal) : SX.Idx → EReal :=
  fun i => layer (hidden x src dst W1a b1a W1b b1b) src dst W2a b2a W2b b2b (i 0) (i 1)

end Cert.GinSpec

end
-- ==== Proof.AggPad.lean ====
import proofs.«431135_j8108898255053_1_alg».proof.Proof.GinSpec
import Idealize.ShloMosaic.Lib.ValueIdx
import Mathlib.Algebra.BigOperators.Fin

namespace Cert.AggPad

open Idealize.ShloMosaic Idealize.ShloMosaic.ValueIdx

/-- The 1600 added edges end at 50000, which is no node, so the longer sum is the aggregate over the 600000 edges. -/
theorem agg_pad (h : Cert.GinSpec.SX.Idx → EReal) (src dst : Cert.GinSpec.SE.Idx → BitVec 32)
    (srcp dstp : Fin 601600 → BitVec 32)
    (hs : ∀ e : Fin 601600, srcp e = if hlt : e.val < 600000 then src (ix1 ⟨e.val, hlt⟩) else 0#32)
    (hd : ∀ e : Fin 601600, dstp e = if hlt : e.val < 600000 then dst (ix1 ⟨e.val, hlt⟩) else 50000#32)
    (n : Fin 50000) (d : Fin 128) :
    (∑ e : Fin 601600, if (dstp e).toInt = (n.val : ℤ) then h (ix2 (Cert.GinSpec.rowOf (srcp e)) d) else 0)
      = Cert.GinSpec.agg h src dst n d := by
  have h1 (e : Fin 600000) : srcp (Fin.castAdd 1600 e) = src (ix1 e) := (hs _).trans (dif_pos e.isLt)
  have h2 (e : Fin 600000) : dstp (Fin.castAdd 1600 e) = dst (ix1 e) := (hd _).trans (dif_pos e.isLt)
  have h3 (e : Fin 1600) : dstp (Fin.natAdd 600000 e) = 50000#32 :=
    (hd _).trans (dif_neg (Nat.not_lt.2 (Nat.le_add_right _ _)))
  have h4 : ¬(50000#32 : BitVec 32).toInt = (n.val : ℤ) := (Int.ofNat_lt.2 n.isLt).ne'
  refine (Fin.sum_univ_add (a := 600000) (b := 1600) _).trans ?_
  simp only [h1, h2, h3, h4, if_false, Finset.sum_const_zero, add_zero]
  rfl

theorem srcp_range (src : Cert.GinSpec.SE.Idx → BitVec 32) (srcp : Fin 601600 → BitVec 32)
    (hs : ∀ e : Fin 601600, srcp e = if hlt : e.val < 600000 then src (ix1 ⟨e.val, hlt⟩) else 0#32)
    (hsrc : ∀ e : Fin 600000, 0 ≤ (src (ix1 e)).toInt ∧ (src (ix1 e)).toInt < 50000) :
    ∀ e : Fin 601600, 0 ≤ (srcp e).toInt ∧ (srcp e).toInt < 50000 := fun e => by
  rw [hs]
  split
  · exact hsrc _
  · decide

end Cert.AggPad
-- ==== Proof.LibPlainDot.lean ====
import Idealize.ShloMosaic.PureOps.Ideal
import Idealize.ShloMosaic.PureOps.Ideal.Laws
import Idealize.ShloMosaic.Lib.ValueIdx
import Idealize.ShloMosaic.Lib.StackMember
import Idealize.ShloMosaic.Lib.KernelVsHost

namespace Cert.LibPlainDot

open Idealize.ShloMosaic Idealize.ShloMosaic.ValueIdx

variable {m k n : Nat} {φ₁ φ₂ : FTy}

/-- A `dot_general` whose record is the plain matrix product reads `∑ c, A (a, c) * B (c, b)` at `(a, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) :=
  hD ▸ StackMember.dotGeneral_plain_apply prec A B a b

/-- The same sum for `matmul` with a zero accumulator. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) :=
  (congrFun (matmul_zero_eq_dotGeneral D prec A B) _).trans (dotGeneral_apply D hD prec A B a b)

end Cert.LibPlainDot
-- ==== Proof.KIValue0.lean ====
import proofs.«431135_j8108898255053_1_alg».proof.Proof.KIRegion0
import proofs.«431135_j8108898255053_1_alg».proof.Proof.GinSpec
import proofs.«431135_j8108898255053_1_alg».proof.Proof.LibPlainDot
import Idealize.ShloMosaic.Lib.ValueLayout

noncomputable section

namespace Cert.KernelIdeal.Gen

namespace Val0

open Idealize.ShloMosaic Idealize.ShloMosaic.TcCoe Idealize.ShloMosaic.ValueIdx Idealize.SL.Sem
open Cert.GinSpec (rowOf)

theorem hot_eq (w a : BitVec 32) :
    ((((IntOp.cmpi .eq w a).setWidth 32).toInt : ℝ) : EReal) = if w = a then 1 else 0 := by
  by_cases h : w = a <;> simp [IntOp.cmpi, h, beq_false_of_ne]

/-- One entry of the body's sum: the old entry plus the one-hot row of `p` against column `q` of the tile's features. -/
theorem pay2_apply (i : grid0.Coords) (x0 : Vec Ideal S6400x1 .i32) (x1 : Vec Ideal S2000x128 .bf16) (xs : Vec Ideal S6400x128 .f32)
    (p : Fin 6400) (q : Fin 128) :
    k0_pay2 i x0 x1 xs (ix2 p q)
      = xs (ix2 p q) + ∑ j : Fin 2000, (if x0 (ix2 p 0) = BitVec.ofNat 32 (i 1).val * 2000#32 + BitVec.ofNat 32 j.val then (1 : EReal) else 0) * x1 (ix2 j q) := by
  simp only [k0_pay2, shapeCast_self]
  refine (addf_apply _ _ _).trans (congrArg _ ((Cert.LibPlainDot.matmul_zero_apply (φ₂ := .bf16) _ rfl none _ x1 p q).trans
    (Finset.sum_congr rfl fun j _ => congrArg (· * _) ((hot_eq _ _).trans (if_congr ?_ rfl rfl)))))
  rw [broadcastTo_apply x0 _ _ (ix2 p 0) (Fin.forall_fin_two.2 ⟨rfl, rfl⟩), broadcastTo_1b_ab_apply]
  show x0 (ix2 p 0) = _ + iota _ _ _ _ _ (ix2 0 j) ↔ _
  rw [iota_single_apply]
  exact Iff.rfl

/-- A one-hot row against `f` keeps the entry of the node that `w` names, when that node lies in tile `k`. -/
theorem hot_sum (w : BitVec 32) (hw : 0 ≤ w.toInt ∧ w.toInt < 50000) (k : ℕ) (hk : k < 25) (f : Fin 2000 → EReal) (g : Fin 50000 → EReal)
    (hf : ∀ j : Fin 2000, f j = g ⟨k * 2000 + j.val, by omega⟩) :
    ∑ j : Fin 2000, (if w = BitVec.ofNat 32 k * 2000#32 + BitVec.ofNat 32 j.val then (1 : EReal) else 0) * f j
      = ∑ j ∈ Finset.range 2000, if (rowOf w).val = k * 2000 + j then g (rowOf w) else 0 := by
  rw [← Fin.sum_univ_eq_sum_range]
  refine Finset.sum_congr rfl fun j _ => ?_
  rw [hf, ite_mul, one_mul, zero_mul]
  refine ite_congr (propext ?_) (fun h => congrArg g (Fin.ext h.symm)) fun _ => rfl
  have := BitVec.toInt_eq_toNat_cond (x := w)
  rw [← BitVec.toNat_inj]
  simp only [BitVec.toNat_add, BitVec.toNat_mul, BitVec.toNat_ofNat, rowOf]
  split at this <;> omega

theorem idx_facts0 : ∀ t : Fin cfg0.N, ((grid0.coords t) 1).val = t.val % 25
    ∧ win0_0.index t 0 = t.val / 25 ∧ win0_0.index t 1 = 0
    ∧ win0_1.index t 0 = t.val % 25 ∧ win0_1.index t 1 = 0
    ∧ win0_2.index t 0 = t.val / 25 ∧ win0_2.index t 1 = 0 :=
  (by decide +kernel : ∀ t : Fin grid0.N, _)

theorem cover0 (i : S601600x128.Idx) : ∃ t : Fin cfg0.N, (cfg0.win 2).flush t = true ∧ i ∈ ((cfg0.win 2).blk t).view.set := by
  have hN : cfg0.N = 2350 := N_0
  have h0 := idx2_lt0 i
  obtain ⟨t, ht⟩ : ∃ t : Fin cfg0.N, t.val = (i 0).val / 6400 * 25 + 24 := ⟨⟨_, by omega⟩, rfl⟩
  have e := idx_facts0 t
  exact ⟨t, (flush0_2 t).mpr (by omega), Finset.mem_map.2 ⟨ix2 ⟨(i 0).val % 6400, Nat.mod_lt _ (by decide)⟩ (i 1), Finset.mem_univ _,
    Shape.idx_ext₂ (by show win0_2.index t 0 * 6400 + 1 * ((i 0).val % 6400) = _; omega)
      (by show win0_2.index t 1 * 128 + 1 * (i 1).val = _; omega)⟩⟩

section

variable (V : (c : Dev nD) → (b : Ref sig .tc) → Buf (Elt Ideal) ((c : Thread nD τ).loc b)) (c : Dev nD)

noncomputable abbrev idxArr0 : S601600x1.Idx → BitVec 32 := V c (Pipeline.arrRef spec0 0)
noncomputable abbrev featArr0 : S50000x128.Idx → EReal := V c (Pipeline.arrRef spec0 1)

noncomputable abbrev node0 (i : S601600x128.Idx) : Fin 50000 := rowOf (idxArr0 V c (ix2 (i 0) 0))

noncomputable abbrev G0 : S601600x128.Idx → EReal := fun i => featArr0 V c (ix2 (node0 V c i) (i 1))

variable (hidx : ∀ e : Fin 601600, 0 ≤ (idxArr0 V c (ix2 e 0)).toInt ∧ (idxArr0 V c (ix2 e 0)).toInt < 50000)

section

variable (y : S6400x128.Idx) (i : S601600x128.Idx) (h1 : (i 1).val = (y 1).val)
  (n : ℕ) (hn : n < cfg0.N) (h0 : (i 0).val = n / 25 * 6400 + (y 0).val)
include hidx h1 h0

theorem step0 (xs : Vec Ideal S6400x128 .f32) :
    k0_pay2 (grid0.coords ⟨n, hn⟩) (iblk0 V c 0 ⟨n, hn⟩) (iblk0 V c 1 ⟨n, hn⟩) xs y
      = xs y + ∑ j ∈ Finset.range 2000, if (node0 V c i).val = n % 25 * 2000 + j then G0 V c i else 0 := by
  have e := idx_facts0 ⟨n, hn⟩
  dsimp only at e
  rw [eq_ix2 y]
  refine (pay2_apply _ _ _ xs _ _).trans (congrArg _ ?_)
  rw [e.1, show iblk0 V c 0 ⟨n, hn⟩ (ix2 (y 0) 0) = idxArr0 V c (ix2 (i 0) 0) from
    congrArg (idxArr0 V c) (Shape.idx_ext₂ (by show win0_0.index _ 0 * 6400 + 1 * (y 0).val = (i 0).val; omega)
      (by show win0_0.index _ 1 * 1 + 1 * 0 = 0; omega))]
  exact hot_sum _ (hidx _) _ (by omega) _ (fun m => featArr0 V c (ix2 m (i 1))) fun j =>
    congrArg (featArr0 V c) (Shape.idx_ext₂ (by show win0_1.index _ 0 * 2000 + 1 * j.val = n % 25 * 2000 + j.val; omega)
      (by show win0_1.index _ 1 * 128 + 1 * (y 1).val = (i 1).val; omega))

/-- Within a run the accumulator has gathered the named node's feature once the tiles met so far reach that node. -/
theorem acc0_closed :
    acc0 V c n hn y = ∑ m ∈ Finset.range (n % 25 * 2000 + 2000), if (node0 V c i).val = m then G0 V c i else 0 := by
  induction n using Nat.strong_induction_on with | _ n ih => ?_
  by_cases hz : n % 25 = 0
  · rw [acc0_first V c ⟨n, hn⟩ hz, step0 V c hidx y i h1 n hn h0, show k0_pay1 (F := Ideal) y = 0 from Ideal.ofBits_zero_f32, zero_add, hz]
    simp only [Nat.zero_mul, Nat.zero_add]
  · rw [acc0_next V c ⟨n, hn⟩ hz, step0 V c hidx y i h1 n hn h0, ih (n - 1) (by omega) (by omega) (by omega),
      show (n - 1) % 25 * 2000 + 2000 = n % 25 * 2000 by omega]
    exact (Finset.sum_range_add _ _ _).symm

end

include hidx

theorem flushed0_eq (t : Fin cfg0.N) (hf : (cfg0.win 2).flush t = true) :
    (dat0 V c).flushed 2 t = ((cfg0.win 2).blk t).view.read (Elt Ideal) (G0 V c) := by
  have h24 : t.val % 25 = 24 := (flush0_2 t).mp hf
  have e := idx_facts0 t
  funext y
  exact (acc0_closed V c hidx y (((cfg0.win 2).blk t).view.emb y)
    (by show win0_2.index t 1 * 128 + 1 * (y 1).val = _; omega) _ t.isLt
    (by show win0_2.index t 0 * 6400 + 1 * (y 0).val = _; omega)).trans
    ((Finset.sum_ite_eq _ _ _).trans (if_pos (Finset.mem_range.2 (by omega))))

end

/-- Row `e` of the output array is the feature row of the node that index `e` names. -/
theorem final0 (V : (c : Dev nD) → (b : Ref sig .tc) → Buf (Elt Ideal) ((c : Thread nD τ).loc b)) (c : Dev nD)
    (hidx : ∀ e : Fin 601600, 0 ≤ ((V c (Pipeline.arrRef spec0 0) : S601600x1.Idx → BitVec 32) (ix2 e (0 : Fin 1))).toInt ∧ ((V c (Pipeline.arrRef spec0 0) : S601600x1.Idx → BitVec 32) (ix2 e (0 : Fin 1))).toInt < 50000) :
    ((dat0 (F := Ideal) V c).arrAt 2 cfg0.N : S601600x128.Idx → EReal)
      = fun i => (V c (Pipeline.arrRef spec0 1) : S50000x128.Idx → EReal) (ix2 (Cert.GinSpec.rowOf ((V c (Pipeline.arrRef spec0 0) : S601600x1.Idx → BitVec 32) (ix2 (i 0) (0 : Fin 1)))) (i 1)) :=
  (dat0 V c).arrAt_eq_of_cover 2 (G0 V c) (flushed0_eq V c hidx) cover0

end Val0

end Cert.KernelIdeal.Gen

end
-- ==== Proof.KIValue1.lean ====
import proofs.«431135_j8108898255053_1_alg».proof.Proof.KIRegion1
import proofs.«431135_j8108898255053_1_alg».proof.Proof.GinSpec
import proofs.«431135_j8108898255053_1_alg».proof.Proof.LibPlainDot
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.ValueIdx

namespace Val1

-- A node id below 2^31 is a given word exactly when the word's signed reading is the id: the factor is 1 there and 0 elsewhere.
theorem onehot1 (n : ℕ) (hn : n < 2 ^ 31) (a w : BitVec 32) (ha : a = BitVec.ofNat 32 n) (x : EReal) :
    (FloatOps.sitofp (F := Ideal) .f32 ((IntOp.cmpi .eq a w).setWidth 32) : EReal) * x = if w.toInt = (n : ℤ) then x else 0 := by
  subst ha
  have hto : (BitVec.ofNat 32 n).toInt = (n : ℤ) := by
    rw [BitVec.toInt_eq_toNat_cond, BitVec.toNat_ofNat]; split <;> omega
  show (((((IntOp.cmpi .eq (BitVec.ofNat 32 n) w).setWidth 32).toInt : ℝ)) : EReal) * x = _
  split
  · next h => simp [IntOp.cmpi, BitVec.eq_of_toInt_eq (hto.trans h.symm)] <;> norm_num
  · next h => simp [IntOp.cmpi, show (BitVec.ofNat 32 n == w) = false from beq_eq_false_iff_ne.mpr fun e => h (e ▸ hto)] <;> norm_num

-- At (p, q): the addend there plus, over the tile's edges, the row entry of each edge whose destination reads node (i 0) * 2000 + p.
theorem pay2_apply1 (i : grid1.Coords) (hi : (i 0).val < 25) (v7 : Vec Ideal S1x6400 .i32) (v15 : Vec Ideal S6400x128 .bf16) (v18 : Vec Ideal S2000x128 .f32)
    (p : Fin 2000) (q : Fin 128) :
    (k1_pay2 i v7 v15 v18 : S2000x128.Idx → EReal) (ix2 p q)
      = v18 (ix2 p q) + ∑ j : Fin 6400, if (v7 (ix2 (0 : Fin 1) j)).toInt = (((i 0).val * 2000 + p.val : ℕ) : ℤ) then v15 (ix2 j q) else 0 := by
  unfold k1_pay2
  simp only [shapeCast_self]
  refine (addf_apply _ _ _).trans (congrArg (v18 (ix2 p q) + ·) ?_)
  refine (Cert.LibPlainDot.matmul_zero_apply (m := 2000) (k := 6400) (n := 128) (φ₁ := .bf16) (φ₂ := .bf16)
    dot_S2000x6400_S6400x128_S2000x128_1_0_0_1_n_n rfl none _ _ p q).trans ?_
  refine Finset.sum_congr rfl fun j _ => ?_
  have hp := p.isLt
  show FloatOps.sitofp (F := Ideal) .f32 ((IntOp.cmpi .eq _
    (broadcastTo S2000x6400 v7 broadcasts_S1x6400_S2000x6400 (ix2 p j))).setWidth 32) * _ = _
  rw [broadcastTo_1b_ab_apply]
  refine onehot1 _ (by omega) _ _ (BitVec.eq_of_toNat_eq ?_) _
  show (BitVec.ofNat 32 (i 0).val * 2000#32 + BitVec.ofNat 32 (0 * 2000 + p.val)).toNat = _
  simp only [BitVec.toNat_add, BitVec.toNat_mul, BitVec.toNat_ofNat]
  omega

theorem pay1_apply1 (y : S2000x128.Idx) : (k1_pay1 (F := Ideal) : S2000x128.Idx → EReal) y = 0 := by
  unfold k1_pay1
  simp only [shapeCast_self]
  exact Ideal.ofBits_zero_f32

variable (V : (c : Dev nD) → (b : Ref sig .tc) → Buf (Elt Ideal) ((c : Thread nD τ).loc b))

abbrev idxRow1 (c : Dev nD) : S1x601600.Idx → BitVec 32 := V c (Pipeline.arrRef spec1 0)
abbrev rows1 (c : Dev nD) : S601600x128.Idx → EReal := V c (Pipeline.arrRef spec1 1)

-- Point t has coordinates (t / 94, t % 94); every block index is one of the two, or zero.
theorem idx_facts1 (t : Fin cfg1.N) : ((grid1.coords t) 0).val = t.val / 94
    ∧ win1_0.index t (0 : Fin 2) = 0 ∧ win1_0.index t (1 : Fin 2) = t.val % 94
    ∧ win1_1.index t (0 : Fin 2) = t.val % 94 ∧ win1_1.index t (1 : Fin 2) = 0
    ∧ win1_2.index t (0 : Fin 2) = t.val / 94 ∧ win1_2.index t (1 : Fin 2) = 0 := by
  have hN : t.val < 2350 := lt_of_lt_of_eq t.isLt N_1
  have h0 : ((grid1.coords t) 0).val = t.val / 94 % 25 := rfl
  have h1 : ((grid1.coords t) 1).val = t.val / 1 % 94 := rfl
  refine ⟨by omega, rfl, ?_, ?_, rfl, ?_, rfl⟩ <;>
    (show (BitVec.ofNat 32 _).toNat = _; rw [BitVec.toNat_ofNat]; omega)

-- Edge e's contribution to node n, column q; nothing past the last edge.
noncomputable def term1 (c : Dev nD) (n : ℕ) (q : Fin 128) (e : ℕ) : EReal :=
  if h : e < 601600 then (if (idxRow1 V c (ix2 (0 : Fin 1) ⟨e, h⟩)).toInt = (n : ℤ) then rows1 V c (ix2 ⟨e, h⟩ q) else 0) else 0

theorem step1 (c : Dev nD) (t : Fin cfg1.N) (xs : Vec Ideal S2000x128 .f32) (p : Fin 2000) (q : Fin 128) :
    (k1_pay2 (grid1.coords t) (iblk1 V c 0 t) (iblk1 V c 1 t) xs : S2000x128.Idx → EReal) (ix2 p q)
      = xs (ix2 p q) + ∑ j ∈ Finset.range 6400, term1 V c (t.val / 94 * 2000 + p.val) q (t.val % 94 * 6400 + j) := by
  have hN : t.val < 2350 := lt_of_lt_of_eq t.isLt N_1
  obtain ⟨ec, a0, a1, b0, b1, -⟩ := idx_facts1 t
  refine (pay2_apply1 (grid1.coords t) (by rw [ec]; omega) _ _ xs p q).trans ?_
  rw [ec, Finset.sum_range]
  refine congrArg (xs (ix2 p q) + ·) (Finset.sum_congr rfl fun j _ => ?_)
  have hj : t.val % 94 * 6400 + j.val < 601600 := by omega
  have e0 : (iblk1 V c 0 t : S1x6400.Idx → BitVec 32) (ix2 (0 : Fin 1) j) = idxRow1 V c (ix2 (0 : Fin 1) ⟨_, hj⟩) :=
    congrArg (V c (Pipeline.arrRef spec1 0)) (funext fun a => Fin.ext (by
      match a with
      | ⟨0, _⟩ => show win1_0.index t (0 : Fin 2) * 1 + 1 * 0 = 0; omega
      | ⟨1, _⟩ => show win1_0.index t (1 : Fin 2) * 6400 + 1 * j.val = t.val % 94 * 6400 + j.val; omega))
  have e1 : (iblk1 V c 1 t : S6400x128.Idx → EReal) (ix2 j q) = rows1 V c (ix2 ⟨_, hj⟩ q) :=
    congrArg (V c (Pipeline.arrRef spec1 1)) (funext fun a => Fin.ext (by
      match a with
      | ⟨0, _⟩ => show win1_1.index t (0 : Fin 2) * 6400 + 1 * j.val = t.val % 94 * 6400 + j.val; omega
      | ⟨1, _⟩ => show win1_1.index t (1 : Fin 2) * 128 + 1 * q.val = q.val; omega))
  unfold term1
  rw [dif_pos hj, e0, e1]

-- By induction on the position: the contributions of the edges of the tiles of the run so far.
theorem acc1_eq (c : Dev nD) (n : ℕ) : ∀ (hn : n < cfg1.N) (p : Fin 2000) (q : Fin 128),
    (acc1 V c n hn : S2000x128.Idx → EReal) (ix2 p q)
      = ∑ e ∈ Finset.range ((n % 94 + 1) * 6400), term1 V c (n / 94 * 2000 + p.val) q e := by
  induction n using Nat.strong_induction_on with
  | _ n ih =>
    intro hn p q
    by_cases h0 : n % 94 = 0
    · rw [acc1_first V c ⟨n, hn⟩ h0, step1 V c ⟨n, hn⟩ _ p q, pay1_apply1, zero_add]
      show ∑ j ∈ Finset.range 6400, term1 V c (n / 94 * 2000 + p.val) q (n % 94 * 6400 + j) = _
      rw [h0]; simp only [zero_mul, zero_add, one_mul]
    · rw [acc1_next V c ⟨n, hn⟩ h0, step1 V c ⟨n, hn⟩ _ p q]
      show (acc1 V c (n - 1) _ : S2000x128.Idx → EReal) (ix2 p q)
        + ∑ j ∈ Finset.range 6400, term1 V c (n / 94 * 2000 + p.val) q (n % 94 * 6400 + j) = _
      rw [ih (n - 1) (by omega) _ p q, show (n - 1) / 94 = n / 94 by omega, show (n - 1) % 94 + 1 = n % 94 by omega,
        add_one_mul, Finset.sum_range_add]

noncomputable def total1 (c : Dev nD) (n : ℕ) (q : Fin 128) : EReal :=
  ∑ e : Fin 601600, if (idxRow1 V c (ix2 (0 : Fin 1) e)).toInt = (n : ℤ) then rows1 V c (ix2 e q) else 0

-- If at the last tile of each run the sum at (p, q) is T at the row's node, the block kept there is the block of i ↦ T (i 0) (i 1).
theorem flushed1_eq (c : Dev nD) (T : ℕ → Fin 128 → EReal)
    (hT : ∀ (n : ℕ) (hn : n < cfg1.N) (p : Fin 2000) (q : Fin 128), n % 94 = 93 →
      (acc1 V c n hn : S2000x128.Idx → EReal) (ix2 p q) = T (n / 94 * 2000 + p.val) q)
    (t : Fin cfg1.N) (hf : (cfg1.win 2).flush t = true) :
    (dat1 V c).flushed 2 t = ((cfg1.win 2).blk t).view.read (Elt Ideal) (fun i : S50000x128.Idx => T (i 0).val (i 1)) := by
  obtain ⟨-, -, -, -, -, e0, e1⟩ := idx_facts1 t
  show (cfg1.win 2).cut (grid1.coords t) ((dat1 V c).after 2 t) = _
  rw [after1_2]
  funext y
  obtain ⟨p, q, rfl⟩ : ∃ (p : Fin 2000) (q : Fin 128), y = ix2 p q := ⟨y 0, y 1, eq_ix2 y⟩
  have h0 : ((((cfg1.win 2).blk t).view.emb (ix2 p q)) 0).val = t.val / 94 * 2000 + p.val := by
    show win1_2.index t (0 : Fin 2) * 2000 + 1 * p.val = t.val / 94 * 2000 + p.val; omega
  have h1 : (((cfg1.win 2).blk t).view.emb (ix2 p q)) 1 = q :=
    Fin.ext (by show win1_2.index t (1 : Fin 2) * 128 + 1 * q.val = q.val; omega)
  show (acc1 V c t.val t.isLt : S2000x128.Idx → EReal) (ix2 p q)
    = T ((((cfg1.win 2).blk t).view.emb (ix2 p q)) 0).val ((((cfg1.win 2).blk t).view.emb (ix2 p q)) 1)
  rw [h0, h1]
  exact hT _ _ p q ((flush1_2 t).mp hf)

-- Every row lies in the block of the last tile of its run.
theorem cover1_2 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 2350 := N_1
  let t : Fin cfg1.N := ⟨(i 0).val / 2000 * 94 + 93, by rw [hN]; omega⟩
  have htv : t.val = (i 0).val / 2000 * 94 + 93 := rfl
  obtain ⟨-, -, -, -, -, e0, e1⟩ := idx_facts1 t
  refine ⟨t, (flush1_2 t).mpr (by rw [htv]; omega), ?_⟩
  show i ∈ ((View.whole (Pipeline.arrRef spec1 2)).slice (win1_2.rect t)).set
  rw [View.set_slice_whole, Rect.mem_set_unit]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

theorem final1 (V : (c : Dev nD) → (b : Ref sig .tc) → Buf (Elt Ideal) ((c : Thread nD τ).loc b)) (c : Dev nD) :
    ((dat1 (F := Ideal) V c).arrAt 2 cfg1.N : S50000x128.Idx → EReal)
      = fun i => ∑ e : Fin 601600, if (idxRow1 V c (ix2 (0 : Fin 1) e)).toInt = (((i 0 : Fin 50000).val : ℕ) : ℤ) then rows1 V c (ix2 e (i 1)) else 0 :=
  (dat1 V c).arrAt_eq_of_cover 2 _ (flushed1_eq V c (total1 V c) fun n hn p q h => by
    rw [acc1_eq V c n hn p q, h, show (93 + 1) * 6400 = 601600 from rfl, Finset.sum_range]
    exact Finset.sum_congr rfl fun e _ => dif_pos e.isLt) cover1_2

end Val1

end Cert.KernelIdeal.Gen

end
-- ==== Proof.KIValue5.lean ====
import proofs.«431135_j8108898255053_1_alg».proof.Proof.KIRegion5
import proofs.«431135_j8108898255053_1_alg».proof.Proof.GinSpec
import proofs.«431135_j8108898255053_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen

namespace Val5

open Idealize.ShloMosaic Idealize.ShloMosaic.TcCoe Idealize.ShloMosaic.ValueIdx

theorem lin5_apply (x : FVec Ideal S5000x128 .bf16) (w : FVec Ideal S128x128 .bf16) (b : Vec Ideal S128 .f32) (p : Fin 5000) (q : Fin 128) :
    (addf (matmul dot_S5000x128_S128x128_S5000x128_1_0_0_1_n_n none x w (constant (F := Ideal) S5000x128 .f32 0x00000000#32))
        (broadcastTo S5000x128 (shapeCast S1x128 b shapeCasts_S128_S1x128) broadcasts_S1x128_S5000x128) : FVec Ideal S5000x128 .f32) (ix2 p q)
      = (∑ c : Fin 128, x (ix2 p c) * w (ix2 c q)) + b (ix1 q) :=
  congrArg₂ (· + ·) (Cert.LibPlainDot.matmul_zero_apply dot_S5000x128_S128x128_S5000x128_1_0_0_1_n_n rfl none x w p q)
    ((broadcastTo_1b_ab_apply _ _ p q).trans (shapeCast_a_1a_apply b _ 0 q))

/-- Row `p` of the two row blocks is row `i 0` of the node arrays and the column is `i 1`: the stored value is the specification's two-layer map there. -/
theorem pay5_eq_spec {X A : S50000x128.Idx → EReal} {Wa Wb : S128x128.Idx → EReal} {ba bb : S128.Idx → EReal}
    {x0 x1 : Vec Ideal S5000x128 .f32} {wa wb : Vec Ideal S128x128 .f32} {va vb : Vec Ideal S128 .f32}
    (p : Fin 5000) (q : Fin 128) (i : S50000x128.Idx)
    (h0 : ∀ k : Fin 128, x0 (ix2 p k) = X (ix2 (i 0) k)) (h1 : ∀ k : Fin 128, x1 (ix2 p k) = A (ix2 (i 0) k))
    (hwa : wa = Wa) (hwb : wb = Wb) (hba : va = ba) (hbb : vb = bb) (hq : (i 1 : Fin 128) = q) :
    (k5_pay1 x0 x1 wa wb va vb : S5000x128.Idx → EReal) (ix2 p q)
      = Cert.GinSpec.lin (fun n k => max (Cert.GinSpec.lin (fun n k' => X (ix2 n k') + A (ix2 n k')) Wa ba n k) 0) Wb bb (i 0) (i 1) := by
  subst hwa hwb hba hbb hq
  unfold k5_pay1 Cert.GinSpec.lin
  refine (lin5_apply _ _ vb p _).trans (congrArg (· + vb _) (Finset.sum_congr rfl fun k _ => congrArg (· * wb _) ?_))
  refine (maximumf_apply _ _ _).trans (congrArg₂ max ((lin5_apply _ _ va p k).trans ?_) Ideal.ofBits_zero_f32)
  refine congrArg (· + va _) (Finset.sum_congr rfl fun k' _ => ?_)
  rw [shapeCast_self, shapeCast_self]
  exact congrArg (· * wa _) (congrArg₂ (· + ·) (h0 k') (h1 k'))

theorem hz5_2 : (![0, 0] : Fin 2 → Nat) = fun _ => 0 := funext fun a => by fin_cases a <;> rfl
theorem hz5_1 : (![0] : Fin 1 → Nat) = fun _ => 0 := funext fun a => by fin_cases a <;> rfl

theorem off5_z (n x : Nat) : 0 * n + 1 * x = x := by omega

section Final

variable (V : (c : Dev nD) → (b : Ref sig .tc) → Buf (Elt Ideal) ((c : Thread nD τ).loc b))

noncomputable abbrev arr5_0 (c : Dev nD) : S50000x128.Idx → EReal := V c (Pipeline.arrRef spec5 0)
noncomputable abbrev arr5_1 (c : Dev nD) : S50000x128.Idx → EReal := V c (Pipeline.arrRef spec5 1)
noncomputable abbrev arr5_2 (c : Dev nD) : S128x128.Idx → EReal := V c (Pipeline.arrRef spec5 2)
noncomputable abbrev arr5_3 (c : Dev nD) : S128.Idx → EReal := V c (Pipeline.arrRef spec5 3)
noncomputable abbrev arr5_4 (c : Dev nD) : S128x128.Idx → EReal := V c (Pipeline.arrRef spec5 4)
noncomputable abbrev arr5_5 (c : Dev nD) : S128.Idx → EReal := V c (Pipeline.arrRef spec5 5)

/-- Block `t` is rows `5000 t … 5000 t + 4999` of one function of the six arrays, and row `r` is in block `r / 5000`: the ten blocks cover the rows. -/
theorem final5 (c : Dev nD) :
    ((dat5 (F := Ideal) V c).arrAt 6 cfg5.N : S50000x128.Idx → EReal)
      = fun i => Cert.GinSpec.lin (fun n k => max (Cert.GinSpec.lin (fun n k' => arr5_0 V c (ix2 n k') + arr5_1 V c (ix2 n k')) (arr5_2 V c) (arr5_3 V c) n k) 0) (arr5_4 V c) (arr5_5 V c) (i 0) (i 1) :=
  (dat5 (F := Ideal) V c).arrAt_eq_of_cover 6 _ (fun t _ => by
    show (cfg5.win 6).cut (grid5.coords t) ((dat5 V c).after 6 t) = _
    rw [after5_6]
    unfold out5_6
    rw [View.canon_unit_zero hz5_2]
    simp only [View.ld_unit_zero (S := S5000x128) hz5_2, View.ld_unit_zero (S := S128x128) hz5_2, View.ld_unit_zero (S := S128) hz5_1]
    funext j
    obtain ⟨p, q, rfl⟩ : ∃ (p : Fin 5000) (q : Fin 128), j = ix2 p q := ⟨j 0, j 1, eq_ix2 j⟩
    exact pay5_eq_spec p q (((cfg5.win 6).blk t).view.emb (ix2 p q))
      (fun _ => congrArg (arr5_0 V c) (Shape.idx_ext₂ rfl (off5_z _ _))) (fun _ => congrArg (arr5_1 V c) (Shape.idx_ext₂ rfl (off5_z _ _)))
      (funext fun _ => congrArg (arr5_2 V c) (Shape.idx_ext₂ (off5_z _ _) (off5_z _ _)))
      (funext fun _ => congrArg (arr5_4 V c) (Shape.idx_ext₂ (off5_z _ _) (off5_z _ _)))
      (funext fun _ => congrArg (arr5_3 V c) (funext (Fin.forall_fin_one.2 (Fin.ext (off5_z _ _)))))
      (funext fun _ => congrArg (arr5_5 V c) (funext (Fin.forall_fin_one.2 (Fin.ext (off5_z _ _))))) (Fin.ext (off5_z _ _))) fun (i : S50000x128.Idx) => by
    have h0 := idx2_lt0 i
    have h1 := idx2_lt1 i
    have hN : cfg5.N = 10 := N_5
    obtain ⟨t, ht⟩ : ∃ t : Fin cfg5.N, t.val = (i 0).val / 5000 := ⟨⟨(i 0).val / 5000, by omega⟩, rfl⟩
    have e0 := (by decide +kernel : ∀ t : Fin grid5.N, win5_6.index t (0 : Fin 2) = t.val) t
    refine ⟨t, flush5_6 t, ?_⟩
    rw [show ((cfg5.win 6).blk t).view.set = (win5_6.rect t).set from View.set_slice_whole _ _, Rect.mem_set_unit]
    refine Fin.forall_fin_two.2 ⟨?_, ?_⟩
    · show win5_6.index t (0 : Fin 2) * 5000 ≤ (i 0).val ∧ (i 0).val < win5_6.index t (0 : Fin 2) * 5000 + 5000; omega
    · show 0 * 128 ≤ (i 1).val ∧ (i 1).val < 0 * 128 + 128; omega

end Final

end Val5

end Cert.KernelIdeal.Gen

end
-- ==== Proof.KIValue2.lean ====
import proofs.«431135_j8108898255053_1_alg».proof.Proof.KIRegion2
import proofs.«431135_j8108898255053_1_alg».proof.Proof.KIValue5

noncomputable section

namespace Cert.KernelIdeal.Gen

namespace Val2

open Idealize.ShloMosaic Idealize.ShloMosaic.TcCoe Idealize.ShloMosaic.ValueIdx

/-- This block's stored value is the other dense block's followed by the positive part. -/
theorem pay2_max {F : FTy → Type} [FloatOps F] (x0 x1 : Vec F S5000x128 .f32) (wa wb : Vec F S128x128 .f32) (ba bb : Vec F S128 .f32) :
    k2_pay1 x0 x1 wa wb ba bb = maximumf (k5_pay1 x0 x1 wa wb ba bb) (broadcast S5000x128 (Scalar.ofBits .f32 0x00000000#32)) := by
  unfold k2_pay1 k5_pay1
  simp only [shapeCast_self]

section Final

variable (V : (c : Dev nD) → (b : Ref sig .tc) → Buf (Elt Ideal) ((c : Thread nD τ).loc b))

noncomputable abbrev arr2_0 (c : Dev nD) : S50000x128.Idx → EReal := V c (Pipeline.arrRef spec2 0)
noncomputable abbrev arr2_1 (c : Dev nD) : S50000x128.Idx → EReal := V c (Pipeline.arrRef spec2 1)
noncomputable abbrev arr2_2 (c : Dev nD) : S128x128.Idx → EReal := V c (Pipeline.arrRef spec2 2)
noncomputable abbrev arr2_3 (c : Dev nD) : S128.Idx → EReal := V c (Pipeline.arrRef spec2 3)
noncomputable abbrev arr2_4 (c : Dev nD) : S128x128.Idx → EReal := V c (Pipeline.arrRef spec2 4)
noncomputable abbrev arr2_5 (c : Dev nD) : S128.Idx → EReal := V c (Pipeline.arrRef spec2 5)

/-- Block `t` is rows `5000 t … 5000 t + 4999` of one function of the six arrays, and row `r` is in block `r / 5000`: the ten blocks cover the rows. -/
theorem final2 (c : Dev nD) :
    ((dat2 (F := Ideal) V c).arrAt 6 cfg2.N : S50000x128.Idx → EReal)
      = fun i => max (Cert.GinSpec.lin (fun n k => max (Cert.GinSpec.lin (fun n k' => arr2_0 V c (ix2 n k') + arr2_1 V c (ix2 n k')) (arr2_2 V c) (arr2_3 V c) n k) 0) (arr2_4 V c) (arr2_5 V c) (i 0) (i 1)) 0 :=
  (dat2 (F := Ideal) V c).arrAt_eq_of_cover 6 _ (fun t _ => by
    show (cfg2.win 6).cut (grid2.coords t) ((dat2 V c).after 6 t) = _
    rw [after2_6]
    unfold out2_6
    rw [View.canon_unit_zero Val5.hz5_2]
    simp only [View.ld_unit_zero (S := S5000x128) Val5.hz5_2, View.ld_unit_zero (S := S128x128) Val5.hz5_2, View.ld_unit_zero (S := S128) Val5.hz5_1]
    funext j
    obtain ⟨p, q, rfl⟩ : ∃ (p : Fin 5000) (q : Fin 128), j = ix2 p q := ⟨j 0, j 1, eq_ix2 j⟩
    rw [pay2_max]
    refine congrArg₂ (max : EReal → EReal → EReal) ?_ Ideal.ofBits_zero_f32
    exact Val5.pay5_eq_spec p q (((cfg2.win 6).blk t).view.emb (ix2 p q))
      (fun _ => congrArg (arr2_0 V c) (Shape.idx_ext₂ rfl (Val5.off5_z _ _))) (fun _ => congrArg (arr2_1 V c) (Shape.idx_ext₂ rfl (Val5.off5_z _ _)))
      (funext fun _ => congrArg (arr2_2 V c) (Shape.idx_ext₂ (Val5.off5_z _ _) (Val5.off5_z _ _)))
      (funext fun _ => congrArg (arr2_4 V c) (Shape.idx_ext₂ (Val5.off5_z _ _) (Val5.off5_z _ _)))
      (funext fun _ => congrArg (arr2_3 V c) (funext (Fin.forall_fin_one.2 (Fin.ext (Val5.off5_z _ _)))))
      (funext fun _ => congrArg (arr2_5 V c) (funext (Fin.forall_fin_one.2 (Fin.ext (Val5.off5_z _ _))))) (Fin.ext (Val5.off5_z _ _))) fun (i : S50000x128.Idx) => by
    have h0 := idx2_lt0 i
    have h1 := idx2_lt1 i
    have hN : cfg2.N = 10 := N_2
    obtain ⟨t, ht⟩ : ∃ t : Fin cfg2.N, t.val = (i 0).val / 5000 := ⟨⟨(i 0).val / 5000, by omega⟩, rfl⟩
    have e0 := (by decide +kernel : ∀ t : Fin grid2.N, win2_6.index t (0 : Fin 2) = t.val) t
    refine ⟨t, flush2_6 t, ?_⟩
    rw [show ((cfg2.win 6).blk t).view.set = (win2_6.rect t).set from View.set_slice_whole _ _, Rect.mem_set_unit]
    refine Fin.forall_fin_two.2 ⟨?_, ?_⟩
    · show win2_6.index t (0 : Fin 2) * 5000 ≤ (i 0).val ∧ (i 0).val < win2_6.index t (0 : Fin 2) * 5000 + 5000; omega
    · show 0 * 128 ≤ (i 1).val ∧ (i 1).val < 0 * 128 + 128; omega

end Final

end Val2

end Cert.KernelIdeal.Gen

end
-- ==== Proof.KIValue3.lean ====
import proofs.«431135_j8108898255053_1_alg».proof.Proof.KIRegion3
import proofs.«431135_j8108898255053_1_alg».proof.Proof.GinSpec
import proofs.«431135_j8108898255053_1_alg».proof.Proof.LibPlainDot
import Idealize.ShloMosaic.Lib.ValueLayout

noncomputable section

namespace Cert.KernelIdeal.Gen

namespace Val3

open Idealize.ShloMosaic Idealize.ShloMosaic.TcCoe Idealize.ShloMosaic.ValueIdx Idealize.SL.Sem
open Cert.GinSpec (rowOf)

theorem hot_eq (w a : BitVec 32) :
    ((((IntOp.cmpi .eq w a).setWidth 32).toInt : ℝ) : EReal) = if w = a then 1 else 0 := by
  by_cases h : w = a <;> simp [IntOp.cmpi, h, beq_false_of_ne]

/-- One entry of the body's sum: the old entry plus the one-hot row of `p` against column `q` of the tile's features. -/
theorem pay2_apply (i : grid3.Coords) (x0 : Vec Ideal S6400x1 .i32) (x1 : Vec Ideal S2000x128 .bf16) (xs : Vec Ideal S6400x128 .f32)
    (p : Fin 6400) (q : Fin 128) :
    k3_pay2 i x0 x1 xs (ix2 p q)
      = xs (ix2 p q) + ∑ j : Fin 2000, (if x0 (ix2 p 0) = BitVec.ofNat 32 (i 1).val * 2000#32 + BitVec.ofNat 32 j.val then (1 : EReal) else 0) * x1 (ix2 j q) := by
  simp only [k3_pay2, shapeCast_self]
  refine (addf_apply _ _ _).trans (congrArg _ ((Cert.LibPlainDot.matmul_zero_apply (φ₂ := .bf16) _ rfl none _ x1 p q).trans
    (Finset.sum_congr rfl fun j _ => congrArg (· * _) ((hot_eq _ _).trans (if_congr ?_ rfl rfl)))))
  rw [broadcastTo_apply x0 _ _ (ix2 p 0) (Fin.forall_fin_two.2 ⟨rfl, rfl⟩), broadcastTo_1b_ab_apply]
  show x0 (ix2 p 0) = _ + iota _ _ _ _ _ (ix2 0 j) ↔ _
  rw [iota_single_apply]
  exact Iff.rfl

/-- A one-hot row against `f` keeps the entry of the node that `w` names, when that node lies in tile `k`. -/
theorem hot_sum (w : BitVec 32) (hw : 0 ≤ w.toInt ∧ w.toInt < 50000) (k : ℕ) (hk : k < 25) (f : Fin 2000 → EReal) (g : Fin 50000 → EReal)
    (hf : ∀ j : Fin 2000, f j = g ⟨k * 2000 + j.val, by omega⟩) :
    ∑ j : Fin 2000, (if w = BitVec.ofNat 32 k * 2000#32 + BitVec.ofNat 32 j.val then (1 : EReal) else 0) * f j
      = ∑ j ∈ Finset.range 2000, if (rowOf w).val = k * 2000 + j then g (rowOf w) else 0 := by
  rw [← Fin.sum_univ_eq_sum_range]
  refine Finset.sum_congr rfl fun j _ => ?_
  rw [hf, ite_mul, one_mul, zero_mul]
  refine ite_congr (propext ?_) (fun h => congrArg g (Fin.ext h.symm)) fun _ => rfl
  have := BitVec.toInt_eq_toNat_cond (x := w)
  rw [← BitVec.toNat_inj]
  simp only [BitVec.toNat_add, BitVec.toNat_mul, BitVec.toNat_ofNat, rowOf]
  split at this <;> omega

theorem idx_facts3 : ∀ t : Fin cfg3.N, ((grid3.coords t) 1).val = t.val % 25
    ∧ win3_0.index t 0 = t.val / 25 ∧ win3_0.index t 1 = 0
    ∧ win3_1.index t 0 = t.val % 25 ∧ win3_1.index t 1 = 0
    ∧ win3_2.index t 0 = t.val / 25 ∧ win3_2.index t 1 = 0 :=
  (by decide +kernel : ∀ t : Fin grid3.N, _)

theorem cover3 (i : S601600x128.Idx) : ∃ t : Fin cfg3.N, (cfg3.win 2).flush t = true ∧ i ∈ ((cfg3.win 2).blk t).view.set := by
  have hN : cfg3.N = 2350 := N_3
  have h0 := idx2_lt0 i
  obtain ⟨t, ht⟩ : ∃ t : Fin cfg3.N, t.val = (i 0).val / 6400 * 25 + 24 := ⟨⟨_, by omega⟩, rfl⟩
  have e := idx_facts3 t
  exact ⟨t, (flush3_2 t).mpr (by omega), Finset.mem_map.2 ⟨ix2 ⟨(i 0).val % 6400, Nat.mod_lt _ (by decide)⟩ (i 1), Finset.mem_univ _,
    Shape.idx_ext₂ (by show win3_2.index t 0 * 6400 + 1 * ((i 0).val % 6400) = _; omega)
      (by show win3_2.index t 1 * 128 + 1 * (i 1).val = _; omega)⟩⟩

section

variable (V : (c : Dev nD) → (b : Ref sig .tc) → Buf (Elt Ideal) ((c : Thread nD τ).loc b)) (c : Dev nD)

noncomputable abbrev idxArr3 : S601600x1.Idx → BitVec 32 := V c (Pipeline.arrRef spec3 0)
noncomputable abbrev featArr3 : S50000x128.Idx → EReal := V c (Pipeline.arrRef spec3 1)

noncomputable abbrev node3 (i : S601600x128.Idx) : Fin 50000 := rowOf (idxArr3 V c (ix2 (i 0) 0))

noncomputable abbrev G3 : S601600x128.Idx → EReal := fun i => featArr3 V c (ix2 (node3 V c i) (i 1))

variable (hidx : ∀ e : Fin 601600, 0 ≤ (idxArr3 V c (ix2 e 0)).toInt ∧ (idxArr3 V c (ix2 e 0)).toInt < 50000)

section

variable (y : S6400x128.Idx) (i : S601600x128.Idx) (h1 : (i 1).val = (y 1).val)
  (n : ℕ) (hn : n < cfg3.N) (h0 : (i 0).val = n / 25 * 6400 + (y 0).val)
include hidx h1 h0

theorem step3 (xs : Vec Ideal S6400x128 .f32) :
    k3_pay2 (grid3.coords ⟨n, hn⟩) (iblk3 V c 0 ⟨n, hn⟩) (iblk3 V c 1 ⟨n, hn⟩) xs y
      = xs y + ∑ j ∈ Finset.range 2000, if (node3 V c i).val = n % 25 * 2000 + j then G3 V c i else 0 := by
  have e := idx_facts3 ⟨n, hn⟩
  dsimp only at e
  rw [eq_ix2 y]
  refine (pay2_apply _ _ _ xs _ _).trans (congrArg _ ?_)
  rw [e.1, show iblk3 V c 0 ⟨n, hn⟩ (ix2 (y 0) 0) = idxArr3 V c (ix2 (i 0) 0) from
    congrArg (idxArr3 V c) (Shape.idx_ext₂ (by show win3_0.index _ 0 * 6400 + 1 * (y 0).val = (i 0).val; omega)
      (by show win3_0.index _ 1 * 1 + 1 * 0 = 0; omega))]
  exact hot_sum _ (hidx _) _ (by omega) _ (fun m => featArr3 V c (ix2 m (i 1))) fun j =>
    congrArg (featArr3 V c) (Shape.idx_ext₂ (by show win3_1.index _ 0 * 2000 + 1 * j.val = n % 25 * 2000 + j.val; omega)
      (by show win3_1.index _ 1 * 128 + 1 * (y 1).val = (i 1).val; omega))

/-- Within a run the accumulator has gathered the named node's feature once the tiles met so far reach that node. -/
theorem acc3_closed :
    acc3 V c n hn y = ∑ m ∈ Finset.range (n % 25 * 2000 + 2000), if (node3 V c i).val = m then G3 V c i else 0 := by
  induction n using Nat.strong_induction_on with | _ n ih => ?_
  by_cases hz : n % 25 = 0
  · rw [acc3_first V c ⟨n, hn⟩ hz, step3 V c hidx y i h1 n hn h0, show k3_pay1 (F := Ideal) y = 0 from Ideal.ofBits_zero_f32, zero_add, hz]
    simp only [Nat.zero_mul, Nat.zero_add]
  · rw [acc3_next V c ⟨n, hn⟩ hz, step3 V c hidx y i h1 n hn h0, ih (n - 1) (by omega) (by omega) (by omega),
      show (n - 1) % 25 * 2000 + 2000 = n % 25 * 2000 by omega]
    exact (Finset.sum_range_add _ _ _).symm

end

include hidx

theorem flushed3_eq (t : Fin cfg3.N) (hf : (cfg3.win 2).flush t = true) :
    (dat3 V c).flushed 2 t = ((cfg3.win 2).blk t).view.read (Elt Ideal) (G3 V c) := by
  have h24 : t.val % 25 = 24 := (flush3_2 t).mp hf
  have e := idx_facts3 t
  funext y
  exact (acc3_closed V c hidx y (((cfg3.win 2).blk t).view.emb y)
    (by show win3_2.index t 1 * 128 + 1 * (y 1).val = _; omega) _ t.isLt
    (by show win3_2.index t 0 * 6400 + 1 * (y 0).val = _; omega)).trans
    ((Finset.sum_ite_eq _ _ _).trans (if_pos (Finset.mem_range.2 (by omega))))

end

/-- Row `e` of the output array is the feature row of the node that index `e` names. -/
theorem final3 (V : (c : Dev nD) → (b : Ref sig .tc) → Buf (Elt Ideal) ((c : Thread nD τ).loc b)) (c : Dev nD)
    (hidx : ∀ e : Fin 601600, 0 ≤ ((V c (Pipeline.arrRef spec3 0) : S601600x1.Idx → BitVec 32) (ix2 e (0 : Fin 1))).toInt ∧ ((V c (Pipeline.arrRef spec3 0) : S601600x1.Idx → BitVec 32) (ix2 e (0 : Fin 1))).toInt < 50000) :
    ((dat3 (F := Ideal) V c).arrAt 2 cfg3.N : S601600x128.Idx → EReal)
      = fun i => (V c (Pipeline.arrRef spec3 1) : S50000x128.Idx → EReal) (ix2 (Cert.GinSpec.rowOf ((V c (Pipeline.arrRef spec3 0) : S601600x1.Idx → BitVec 32) (ix2 (i 0) (0 : Fin 1)))) (i 1)) :=
  (dat3 V c).arrAt_eq_of_cover 2 (G3 V c) (flushed3_eq V c hidx) cover3

end Val3

end Cert.KernelIdeal.Gen

end
-- ==== Proof.KIValue4.lean ====
import proofs.«431135_j8108898255053_1_alg».proof.Proof.KIRegion4
import proofs.«431135_j8108898255053_1_alg».proof.Proof.GinSpec
import proofs.«431135_j8108898255053_1_alg».proof.Proof.LibPlainDot
import Idealize.ShloMosaic.Lib.ValueLayout
import Idealize.ShloMosaic.PureOps.Ideal.Laws

noncomputable section

namespace Cert.KernelIdeal.Gen

open Idealize.ShloMosaic Idealize.ShloMosaic.TcCoe Idealize.SL.Sem
open Idealize.ShloMosaic.ValueIdx

namespace Val4

-- A node id below 2^31 is a given word exactly when the word's signed reading is the id: the factor is 1 there and 0 elsewhere.
theorem onehot4 (n : ℕ) (hn : n < 2 ^ 31) (a w : BitVec 32) (ha : a = BitVec.ofNat 32 n) (x : EReal) :
    (FloatOps.sitofp (F := Ideal) .f32 ((IntOp.cmpi .eq a w).setWidth 32) : EReal) * x = if w.toInt = (n : ℤ) then x else 0 := by
  subst ha
  have hto : (BitVec.ofNat 32 n).toInt = (n : ℤ) := by
    rw [BitVec.toInt_eq_toNat_cond, BitVec.toNat_ofNat]; split <;> omega
  show (((((IntOp.cmpi .eq (BitVec.ofNat 32 n) w).setWidth 32).toInt : ℝ)) : EReal) * x = _
  split
  · next h => simp [IntOp.cmpi, BitVec.eq_of_toInt_eq (hto.trans h.symm)] <;> norm_num
  · next h => simp [IntOp.cmpi, show (BitVec.ofNat 32 n == w) = false from beq_eq_false_iff_ne.mpr fun e => h (e ▸ hto)] <;> norm_num

-- At (p, q): the addend there plus, over the tile's edges, the row entry of each edge whose destination reads node (i 0) * 2000 + p.
theorem pay2_apply4 (i : grid4.Coords) (hi : (i 0).val < 25) (v7 : Vec Ideal S1x6400 .i32) (v15 : Vec Ideal S6400x128 .bf16) (v18 : Vec Ideal S2000x128 .f32)
    (p : Fin 2000) (q : Fin 128) :
    (k4_pay2 i v7 v15 v18 : S2000x128.Idx → EReal) (ix2 p q)
      = v18 (ix2 p q) + ∑ j : Fin 6400, if (v7 (ix2 (0 : Fin 1) j)).toInt = (((i 0).val * 2000 + p.val : ℕ) : ℤ) then v15 (ix2 j q) else 0 := by
  unfold k4_pay2
  simp only [shapeCast_self]
  refine (addf_apply _ _ _).trans (congrArg (v18 (ix2 p q) + ·) ?_)
  refine (Cert.LibPlainDot.matmul_zero_apply (m := 2000) (k := 6400) (n := 128) (φ₁ := .bf16) (φ₂ := .bf16)
    dot_S2000x6400_S6400x128_S2000x128_1_0_0_1_n_n rfl none _ _ p q).trans ?_
  refine Finset.sum_congr rfl fun j _ => ?_
  have hp := p.isLt
  show FloatOps.sitofp (F := Ideal) .f32 ((IntOp.cmpi .eq _
    (broadcastTo S2000x6400 v7 broadcasts_S1x6400_S2000x6400 (ix2 p j))).setWidth 32) * _ = _
  rw [broadcastTo_1b_ab_apply]
  refine onehot4 _ (by omega) _ _ (BitVec.eq_of_toNat_eq ?_) _
  show (BitVec.ofNat 32 (i 0).val * 2000#32 + BitVec.ofNat 32 (0 * 2000 + p.val)).toNat = _
  simp only [BitVec.toNat_add, BitVec.toNat_mul, BitVec.toNat_ofNat]
  omega

theorem pay4_apply1 (y : S2000x128.Idx) : (k4_pay1 (F := Ideal) : S2000x128.Idx → EReal) y = 0 := by
  unfold k4_pay1
  simp only [shapeCast_self]
  exact Ideal.ofBits_zero_f32

variable (V : (c : Dev nD) → (b : Ref sig .tc) → Buf (Elt Ideal) ((c : Thread nD τ).loc b))

abbrev idxRow4 (c : Dev nD) : S1x601600.Idx → BitVec 32 := V c (Pipeline.arrRef spec4 0)
abbrev rows4 (c : Dev nD) : S601600x128.Idx → EReal := V c (Pipeline.arrRef spec4 1)

-- Point t has coordinates (t / 94, t % 94); every block index is one of the two, or zero.
theorem idx_facts4 (t : Fin cfg4.N) : ((grid4.coords t) 0).val = t.val / 94
    ∧ win4_0.index t (0 : Fin 2) = 0 ∧ win4_0.index t (1 : Fin 2) = t.val % 94
    ∧ win4_1.index t (0 : Fin 2) = t.val % 94 ∧ win4_1.index t (1 : Fin 2) = 0
    ∧ win4_2.index t (0 : Fin 2) = t.val / 94 ∧ win4_2.index t (1 : Fin 2) = 0 := by
  have hN : t.val < 2350 := lt_of_lt_of_eq t.isLt N_4
  have h0 : ((grid4.coords t) 0).val = t.val / 94 % 25 := rfl
  have h1 : ((grid4.coords t) 1).val = t.val / 1 % 94 := rfl
  refine ⟨by omega, rfl, ?_, ?_, rfl, ?_, rfl⟩ <;>
    (show (BitVec.ofNat 32 _).toNat = _; rw [BitVec.toNat_ofNat]; omega)

-- Edge e's contribution to node n, column q; nothing past the last edge.
noncomputable def term4 (c : Dev nD) (n : ℕ) (q : Fin 128) (e : ℕ) : EReal :=
  if h : e < 601600 then (if (idxRow4 V c (ix2 (0 : Fin 1) ⟨e, h⟩)).toInt = (n : ℤ) then rows4 V c (ix2 ⟨e, h⟩ q) else 0) else 0

theorem step4 (c : Dev nD) (t : Fin cfg4.N) (xs : Vec Ideal S2000x128 .f32) (p : Fin 2000) (q : Fin 128) :
    (k4_pay2 (grid4.coords t) (iblk4 V c 0 t) (iblk4 V c 1 t) xs : S2000x128.Idx → EReal) (ix2 p q)
      = xs (ix2 p q) + ∑ j ∈ Finset.range 6400, term4 V c (t.val / 94 * 2000 + p.val) q (t.val % 94 * 6400 + j) := by
  have hN : t.val < 2350 := lt_of_lt_of_eq t.isLt N_4
  obtain ⟨ec, a0, a1, b0, b1, -⟩ := idx_facts4 t
  refine (pay2_apply4 (grid4.coords t) (by rw [ec]; omega) _ _ xs p q).trans ?_
  rw [ec, Finset.sum_range]
  refine congrArg (xs (ix2 p q) + ·) (Finset.sum_congr rfl fun j _ => ?_)
  have hj : t.val % 94 * 6400 + j.val < 601600 := by omega
  have e0 : (iblk4 V c 0 t : S1x6400.Idx → BitVec 32) (ix2 (0 : Fin 1) j) = idxRow4 V c (ix2 (0 : Fin 1) ⟨_, hj⟩) :=
    congrArg (V c (Pipeline.arrRef spec4 0)) (funext fun a => Fin.ext (by
      match a with
      | ⟨0, _⟩ => show win4_0.index t (0 : Fin 2) * 1 + 1 * 0 = 0; omega
      | ⟨1, _⟩ => show win4_0.index t (1 : Fin 2) * 6400 + 1 * j.val = t.val % 94 * 6400 + j.val; omega))
  have e1 : (iblk4 V c 1 t : S6400x128.Idx → EReal) (ix2 j q) = rows4 V c (ix2 ⟨_, hj⟩ q) :=
    congrArg (V c (Pipeline.arrRef spec4 1)) (funext fun a => Fin.ext (by
      match a with
      | ⟨0, _⟩ => show win4_1.index t (0 : Fin 2) * 6400 + 1 * j.val = t.val % 94 * 6400 + j.val; omega
      | ⟨1, _⟩ => show win4_1.index t (1 : Fin 2) * 128 + 1 * q.val = q.val; omega))
  unfold term4
  rw [dif_pos hj, e0, e1]

-- By induction on the position: the contributions of the edges of the tiles of the run so far.
theorem acc4_eq (c : Dev nD) (n : ℕ) : ∀ (hn : n < cfg4.N) (p : Fin 2000) (q : Fin 128),
    (acc4 V c n hn : S2000x128.Idx → EReal) (ix2 p q)
      = ∑ e ∈ Finset.range ((n % 94 + 1) * 6400), term4 V c (n / 94 * 2000 + p.val) q e := by
  induction n using Nat.strong_induction_on with
  | _ n ih =>
    intro hn p q
    by_cases h0 : n % 94 = 0
    · rw [acc4_first V c ⟨n, hn⟩ h0, step4 V c ⟨n, hn⟩ _ p q, pay4_apply1, zero_add]
      show ∑ j ∈ Finset.range 6400, term4 V c (n / 94 * 2000 + p.val) q (n % 94 * 6400 + j) = _
      rw [h0]; simp only [zero_mul, zero_add, one_mul]
    · rw [acc4_next V c ⟨n, hn⟩ h0, step4 V c ⟨n, hn⟩ _ p q]
      show (acc4 V c (n - 1) _ : S2000x128.Idx → EReal) (ix2 p q)
        + ∑ j ∈ Finset.range 6400, term4 V c (n / 94 * 2000 + p.val) q (n % 94 * 6400 + j) = _
      rw [ih (n - 1) (by omega) _ p q, show (n - 1) / 94 = n / 94 by omega, show (n - 1) % 94 + 1 = n % 94 by omega,
        add_one_mul, Finset.sum_range_add]

noncomputable def total4 (c : Dev nD) (n : ℕ) (q : Fin 128) : EReal :=
  ∑ e : Fin 601600, if (idxRow4 V c (ix2 (0 : Fin 1) e)).toInt = (n : ℤ) then rows4 V c (ix2 e q) else 0

-- If at the last tile of each run the sum at (p, q) is T at the row's node, the block kept there is the block of i ↦ T (i 0) (i 1).
theorem flushed4_eq (c : Dev nD) (T : ℕ → Fin 128 → EReal)
    (hT : ∀ (n : ℕ) (hn : n < cfg4.N) (p : Fin 2000) (q : Fin 128), n % 94 = 93 →
      (acc4 V c n hn : S2000x128.Idx → EReal) (ix2 p q) = T (n / 94 * 2000 + p.val) q)
    (t : Fin cfg4.N) (hf : (cfg4.win 2).flush t = true) :
    (dat4 V c).flushed 2 t = ((cfg4.win 2).blk t).view.read (Elt Ideal) (fun i : S50000x128.Idx => T (i 0).val (i 1)) := by
  obtain ⟨-, -, -, -, -, e0, e1⟩ := idx_facts4 t
  show (cfg4.win 2).cut (grid4.coords t) ((dat4 V c).after 2 t) = _
  rw [after4_2]
  funext y
  obtain ⟨p, q, rfl⟩ : ∃ (p : Fin 2000) (q : Fin 128), y = ix2 p q := ⟨y 0, y 1, eq_ix2 y⟩
  have h0 : ((((cfg4.win 2).blk t).view.emb (ix2 p q)) 0).val = t.val / 94 * 2000 + p.val := by
    show win4_2.index t (0 : Fin 2) * 2000 + 1 * p.val = t.val / 94 * 2000 + p.val; omega
  have h1 : (((cfg4.win 2).blk t).view.emb (ix2 p q)) 1 = q :=
    Fin.ext (by show win4_2.index t (1 : Fin 2) * 128 + 1 * q.val = q.val; omega)
  show (acc4 V c t.val t.isLt : S2000x128.Idx → EReal) (ix2 p q)
    = T ((((cfg4.win 2).blk t).view.emb (ix2 p q)) 0).val ((((cfg4.win 2).blk t).view.emb (ix2 p q)) 1)
  rw [h0, h1]
  exact hT _ _ p q ((flush4_2 t).mp hf)

-- Every row lies in the block of the last tile of its run.
theorem cover4_2 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 2350 := N_4
  let t : Fin cfg4.N := ⟨(i 0).val / 2000 * 94 + 93, by rw [hN]; omega⟩
  have htv : t.val = (i 0).val / 2000 * 94 + 93 := rfl
  obtain ⟨-, -, -, -, -, e0, e1⟩ := idx_facts4 t
  refine ⟨t, (flush4_2 t).mpr (by rw [htv]; omega), ?_⟩
  show i ∈ ((View.whole (Pipeline.arrRef spec4 2)).slice (win4_2.rect t)).set
  rw [View.set_slice_whole, Rect.mem_set_unit]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

theorem final4 (V : (c : Dev nD) → (b : Ref sig .tc) → Buf (Elt Ideal) ((c : Thread nD τ).loc b)) (c : Dev nD) :
    ((dat4 (F := Ideal) V c).arrAt 2 cfg4.N : S50000x128.Idx → EReal)
      = fun i => ∑ e : Fin 601600, if (idxRow4 V c (ix2 (0 : Fin 1) e)).toInt = (((i 0 : Fin 50000).val : ℕ) : ℤ) then rows4 V c (ix2 e (i 1)) else 0 :=
  (dat4 V c).arrAt_eq_of_cover 2 _ (flushed4_eq V c (total4 V c) fun n hn p q h => by
    rw [acc4_eq V c n hn p q, h, show (93 + 1) * 6400 = 601600 from rfl, Finset.sum_range]
    exact Finset.sum_congr rfl fun e _ => dif_pos e.isLt) cover4_2

end Val4

end Cert.KernelIdeal.Gen

end
-- ==== Proof.KIValues.lean ====
import proofs.«431135_j8108898255053_1_alg».proof.Proof.KIRun
import proofs.«431135_j8108898255053_1_alg».proof.Proof.KIHost
import proofs.«431135_j8108898255053_1_alg».proof.Proof.AggPad
import proofs.«431135_j8108898255053_1_alg».proof.Proof.GinSpec
import proofs.«431135_j8108898255053_1_alg».proof.Proof.KIValue0
import proofs.«431135_j8108898255053_1_alg».proof.Proof.KIValue1
import proofs.«431135_j8108898255053_1_alg».proof.Proof.KIValue2
import proofs.«431135_j8108898255053_1_alg».proof.Proof.KIValue3
import proofs.«431135_j8108898255053_1_alg».proof.Proof.KIValue4
import proofs.«431135_j8108898255053_1_alg».proof.Proof.KIValue5
import Idealize.ShloMosaic.Lib.StableHlo.Run
import Idealize.ShloMosaic.Lib.ValueIdx

noncomputable section

namespace Cert.KernelIdeal.Gen

open Idealize.ShloMosaic Idealize.ShloMosaic.TcCoe Idealize.SL.Sem Idealize.ShloMosaic.ValueIdx
open Val0 Val1 Val2 Val3 Val4 Val5

variable (m : (ℓ : Loc nD τ sig) → Buf (Elt Ideal) ℓ) (c : Dev nD)

section Transport

variable (r : Ref sig .tc)
  (h0 : ∀ w, Pipeline.arrRef spec0 w = r → (cfg0.win w).isOut = false := by decide)
  (h1 : ∀ w, Pipeline.arrRef spec1 w = r → (cfg1.win w).isOut = false := by decide)
  (h2 : ∀ w, Pipeline.arrRef spec2 w = r → (cfg2.win w).isOut = false := by decide)
  (hh : r ∉ hostOps3_W := by decide)
  (h3 : ∀ w, Pipeline.arrRef spec3 w = r → (cfg3.win w).isOut = false := by decide)
  (h4 : ∀ w, Pipeline.arrRef spec4 w = r → (cfg4.win w).isOut = false := by decide)
  (hr : r ∉ hostOps0_W ++ hostOps0_1_W ++ hostOps0_2_W ++ hostOps0_3_W ++ hostOps0_4_W := by decide)

include h0 h1 h2 hh in
theorem H3_of_V5 : H3 m c (Proc.devRef .tc r) = V5 m c (Proc.devRef .tc r) :=
  (H3_of m c r hh).trans <| (B3_keep m c r h2).trans <| (B2_keep m c r h1).trans (B1_keep m c r h0)

include h0 h1 hr in
theorem B2_arg : B2 m c (Proc.devRef .tc r) = m ((c : Thread nD τ).loc r) :=
  (B2_keep m c r h1).trans <| (B1_keep m c r h0).trans (V5_arg m c r hr)

include h0 h1 h2 hh h3 h4 hr in
theorem B5_arg : B5 m c (Proc.devRef .tc r) = m ((c : Thread nD τ).loc r) :=
  (B5_keep m c r h4).trans <| (B4_keep m c r h3).trans <| (H3_of_V5 m c r h0 h1 h2 hh).trans (V5_arg m c r hr)

end Transport

abbrev aX : S50000x128.Idx → EReal := m ((c : Thread nD τ).loc main_arg0)
abbrev aSrc : S600000.Idx → BitVec 32 := m ((c : Thread nD τ).loc main_arg1)
abbrev aDst : S600000.Idx → BitVec 32 := m ((c : Thread nD τ).loc main_arg2)
abbrev aW1a : S128x128.Idx → EReal := m ((c : Thread nD τ).loc main_arg3)
abbrev aB1a : S128.Idx → EReal := m ((c : Thread nD τ).loc main_arg4)
abbrev aW1b : S128x128.Idx → EReal := m ((c : Thread nD τ).loc main_arg5)
abbrev aB1b : S128.Idx → EReal := m ((c : Thread nD τ).loc main_arg6)
abbrev aW2a : S128x128.Idx → EReal := m ((c : Thread nD τ).loc main_arg7)
abbrev aB2a : S128.Idx → EReal := m ((c : Thread nD τ).loc main_arg8)
abbrev aW2b : S128x128.Idx → EReal := m ((c : Thread nD τ).loc main_arg9)
abbrev aB2b : S128.Idx → EReal := m ((c : Thread nD τ).loc main_arg10)

abbrev srcp (e : Fin 601600) : BitVec 32 :=
  (V5 m c (Proc.devRef .tc main_v2) : S601600x1.Idx → BitVec 32) (ix2 e (0 : Fin 1))
abbrev dstp (e : Fin 601600) : BitVec 32 :=
  (V5 m c (Proc.devRef .tc main_v3) : S1x601600.Idx → BitVec 32) (ix2 (0 : Fin 1) e)

abbrev Hid : S50000x128.Idx → EReal :=
  Cert.GinSpec.hidden (aX m c) (aSrc m c) (aDst m c) (aW1a m c) (aB1a m c) (aW1b m c) (aB1b m c)

variable (hsrc : ∀ e : Fin 600000, 0 ≤ (aSrc m c (ix1 e)).toInt ∧ (aSrc m c (ix1 e)).toInt < 50000)
include hsrc

/-- One layer's aggregate: rows of `X` taken at the lengthened sources and summed at the lengthened destinations. -/
theorem agg_of {I : S601600x1.Idx → BitVec 32} {D : S1x601600.Idx → BitVec 32} {X H A : S50000x128.Idx → EReal}
    {G : S601600x128.Idx → EReal} (hI : I = V5 m c (Proc.devRef .tc main_v2)) (hD : D = V5 m c (Proc.devRef .tc main_v3))
    (hX : X = H)
    (hG : (∀ e : Fin 601600, 0 ≤ (I (ix2 e 0)).toInt ∧ (I (ix2 e 0)).toInt < 50000) →
      G = fun i => X (ix2 (Cert.GinSpec.rowOf (I (ix2 (i 0) 0))) (i 1)))
    (hA : A = fun i => ∑ e : Fin 601600,
      if (D (ix2 0 e)).toInt = (((i 0 : Fin 50000).val : ℕ) : ℤ) then G (ix2 e (i 1)) else 0) :
    A = fun i => Cert.GinSpec.agg H (aSrc m c) (aDst m c) (i 0) (i 1) := by
  subst hI hD hX hA
  obtain rfl := hG (Cert.AggPad.srcp_range (aSrc m c) (srcp m c) (V5_v2 m c) hsrc)
  exact funext fun i =>
    Cert.AggPad.agg_pad X (aSrc m c) (aDst m c) (srcp m c) (dstp m c) (V5_v2 m c) (V5_v3 m c) (i 0) (i 1)

/-- The first layer: its aggregate, then the two linear maps with their rectifiers. -/
theorem hid1 : (B3 m c (Proc.devRef .tc main_v7) : S50000x128.Idx → EReal) = Hid m c := by
  refine (B3_arr m c 6).trans ((final2 (En2 m) c).trans ?_)
  rw [show arr2_0 (En2 m) c = _ from B2_arg m c main_arg0,
    show arr2_1 (En2 m) c = _ from agg_of m c hsrc rfl (B1_keep m c main_v3 (by decide)) (V5_v4 c m)
      (fun h => (B1_arr m c 2).trans (final0 (En0 m) c h)) ((B2_arr m c 2).trans (final1 (En1 m) c)),
    show arr2_2 (En2 m) c = _ from B2_arg m c main_arg3, show arr2_3 (En2 m) c = _ from B2_arg m c main_arg4,
    show arr2_4 (En2 m) c = _ from B2_arg m c main_arg5, show arr2_5 (En2 m) c = _ from B2_arg m c main_arg6]
  rfl

theorem hid8 : (H3 m c (Proc.devRef .tc main_v8) : S50000x128.Idx → EReal) = Hid m c := by
  after_results
  exact funext fun i => (truncf_apply _ bitsLt_bf16_f32 i).trans (congrFun (hid1 m c hsrc) i)

noncomputable def netOut : Buf (Elt Ideal) ((c.tc : Thread nD τ).loc main_v11) :=
  Cert.GinSpec.out (aX m c) (aSrc m c) (aDst m c) (aW1a m c) (aB1a m c) (aW1b m c) (aB1b m c)
    (aW2a m c) (aB2a m c) (aW2b m c) (aB2b m c)

/-- The second layer, applied to the first layer's value. -/
theorem result_eq : (dat5 (F := Ideal) (En5 m) c).arrAt 6 cfg5.N = netOut m c := by
  refine (final5 (En5 m) c).trans ?_
  rw [show arr5_0 (En5 m) c = _ from
      (B5_keep m c main_v7 (by decide)).trans <| (B4_keep m c main_v7 (by decide)).trans <|
        (H3_of m c main_v7 (by decide)).trans (hid1 m c hsrc),
    show arr5_1 (En5 m) c = _ from agg_of m c hsrc (H3_of_V5 m c main_v2)
      ((B4_keep m c main_v3 (by decide)).trans (H3_of_V5 m c main_v3)) (hid8 m c hsrc)
      (fun h => (B4_arr m c 2).trans (final3 (En3 m) c h)) ((B5_arr m c 2).trans (final4 (En4 m) c)),
    show arr5_2 (En5 m) c = _ from B5_arg m c main_arg7, show arr5_3 (En5 m) c = _ from B5_arg m c main_arg8,
    show arr5_4 (En5 m) c = _ from B5_arg m c main_arg9, show arr5_5 (En5 m) c = _ from B5_arg m c main_arg10]
  rfl

end Cert.KernelIdeal.Gen

end
-- ==== Proof.RefImports.lean ====
import proofs.«431135_j8108898255053_1_alg».proof.Proof.Gen.ReferenceIdeal.Read
-- ==== Proof.LibHostIdx2.lean ====
import Idealize.ShloMosaic.PureOps
import Idealize.ShloMosaic.Lib.ValueIdx

namespace Idealize.ShloMosaic.HostIdx2

open Idealize.ShloMosaic Idealize.ShloMosaic.ValueIdx

/-- Reading a row gather at `(r, q)` gives column `q` of the operand row named by the signed value of `idx (r, 0)`, clamped to `[0, N − 1]`. -/
theorem gather_rows_apply {α : Type} {N R C w : Nat} (hN : 0 < N)
    (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsim : d.startIndexMap = [0]) (hiv : d.indexVectorDim = 1)
    (hss : d.sliceSizes = ![1, C])
    (x : (⟨2, ![N, C]⟩ : Shape).Idx → α) (idx : IVec ⟨2, ![R, 1]⟩ w) (r : Fin R) (q : Fin C) :
    Host.gather d x idx (ix2 r q)
      = x (ix2 ⟨min (idx (ix2 r (0 : Fin 1))).toInt.toNat (N - 1), by omega⟩ q) := by
  obtain ⟨od, cd, ob, sb, sim, iv, ss, wf⟩ := d
  subst hod hcd hob hsb hsim hiv hss
  have hsi : GatherDims.siIdx (s := ⟨2, ![N, C]⟩) (si := ⟨2, ![R, 1]⟩) (t := ⟨2, ![R, C]⟩)
      ⟨[1], [0], [], [], [0], 1, ![1, C], wf⟩ (ix2 r q) ⟨0, Nat.one_pos⟩ = ix2 r (0 : Fin 1) :=
    funext fun b => Fin.ext (match b with | ⟨0, _⟩ => rfl | ⟨1, _⟩ => rfl)
  refine congrArg x (funext fun a => Fin.ext ?_)
  match a with
  | ⟨0, _⟩ => exact congrArg (fun k => min (idx k).toInt.toNat (N - 1)) hsi
  | ⟨1, _⟩ =>
    exact (congrArg (0 + 0 + ·) (dif_pos ((GatherDims.mem_sKept _ _).mpr ⟨(by decide : (1 : Fin 2) ∉ [0]), List.not_mem_nil⟩))).trans
      (Nat.zero_add _)

end Idealize.ShloMosaic.HostIdx2
-- ==== Proof.LibScatterAdd.lean ====
import Idealize.ShloMosaic.PureOps.Ideal
import Idealize.ShloMosaic.Lib.ValueIdx

namespace Cert.LibScatterAdd

open Idealize.ShloMosaic Idealize.ShloMosaic.ValueIdx

/-- `resultIdx?` is `some i'` iff start plus window coordinate equals `i'` on each axis. -/
theorem resultIdx?_eq_some_iff {s si u : Shape} {w : Nat} (d : ScatterDims s si u) (j : u.Idx) (idx : IVec si w)
    (i' : s.Idx) :
    d.resultIdx? j idx = some i' ↔ ∀ a, d.start j idx a + (d.window j a : Int) = ((i' a).val : Int) := by
  unfold ScatterDims.resultIdx?
  split
  · rename_i h
    rw [Option.some.injEq, funext_iff]
    refine forall_congr' fun a => ?_
    rw [Fin.ext_iff]
    have := h a
    show (d.start j idx a + (d.window j a : Int)).toNat = (i' a).val ↔ _
    omega
  · rename_i h
    refine iff_of_false nofun fun e => h fun a => ?_
    have := e a
    have := (i' a).isLt
    omega

/-- Entry `(o, t)` after scatter-adding rows: the old entry plus `∑ upd (n, t)` over the rows `n` with signed start index `o`. -/
theorem scatterAdd_rows_apply {S T R : ℕ} (d : ScatterDims ⟨2, ![S, T]⟩ ⟨2, ![R, 1]⟩ ⟨2, ![R, T]⟩)
    (huw : d.updateWindowDims = [1]) (hiw : d.insertedWindowDims = [0]) (hsd : d.scatterDimsToOperandDims = [0])
    (hiv : d.indexVectorDim = 1)
    (x : (⟨2, ![S, T]⟩ : Shape).Idx → EReal) (idx : IVec ⟨2, ![R, 1]⟩ 32) (upd : (⟨2, ![R, T]⟩ : Shape).Idx → EReal)
    (o : Fin S) (t : Fin T) :
    Ideal.hostScatterAdd d x idx upd (ix2 o t)
      = x (ix2 o t) + ∑ n ∈ Finset.univ.filter
          (fun n : Fin R => (idx (ix2 n (0 : Fin 1))).toInt = (o.val : ℤ)), upd (ix2 n t) := by
  have lands (n : Fin R) (b : Fin T) :
      d.resultIdx? (ix2 n b) idx = some (ix2 o t) ↔ b = t ∧ (idx (ix2 n (0 : Fin 1))).toInt = (o.val : ℤ) := by
    obtain ⟨uw, iw, sd, iv, wf⟩ := d
    subst huw hiw hsd hiv
    have hsi : ScatterDims.siIdx (⟨[1], [0], [0], 1, wf⟩ : ScatterDims ⟨2, ![S, T]⟩ ⟨2, ![R, 1]⟩ ⟨2, ![R, T]⟩) (ix2 n b)
        ⟨0, Nat.one_pos⟩ = ix2 n (0 : Fin 1) :=
      funext fun c => Fin.ext (match c with | ⟨0, _⟩ => rfl | ⟨1, _⟩ => rfl)
    refine (resultIdx?_eq_some_iff _ _ _ _).trans (Fin.forall_fin_two.trans (and_comm.trans (and_congr ?_ ?_)))
    · show (0 : ℤ) + ((b.val : ℕ) : ℤ) = (t.val : ℤ) ↔ b = t
      rw [Fin.ext_iff]; omega
    · show (idx (ScatterDims.siIdx _ (ix2 n b) ⟨0, _⟩)).toInt + ((0 : ℕ) : ℤ) = _ ↔ _
      rw [hsi, Nat.cast_zero, add_zero]
  unfold Ideal.hostScatterAdd
  rw [Finset.sum_filter, Finset.sum_filter, sum_idx2]
  simp only [lands, ite_and, Finset.sum_ite_eq', Finset.mem_univ, if_true]

end Cert.LibScatterAdd
-- ==== Proof.RefSide.lean ====
import proofs.«431135_j8108898255053_1_alg».proof.Proof.RefImports
import proofs.«431135_j8108898255053_1_alg».proof.Proof.GinSpec
import proofs.«431135_j8108898255053_1_alg».proof.Proof.LibHostIdx2
import proofs.«431135_j8108898255053_1_alg».proof.Proof.LibScatterAdd
import proofs.«431135_j8108898255053_1_alg».proof.Proof.LibPlainDot

noncomputable section

namespace Cert.RefSide

open Idealize.ShloMosaic Idealize.ShloMosaic.ValueIdx Cert.ReferenceIdeal Cert.ReferenceIdeal.Gen
open Idealize.ShloMosaic.TcCoe Idealize.SL.Sem Idealize.ShloMosaic.StableHlo

variable (h x : FVec Ideal S50000x128 .f32) (src dst : IVec S600000 32) (W Wa : FVec Ideal S128x128 .f32)
  (b ba : FVec Ideal S128 .f32) (Wb : FVec Ideal S128x128 .f32) (bb : FVec Ideal S128 .f32)

/-- The source indices as a column, a negative one raised by the node count. -/
noncomputable def srcCol : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

noncomputable def dstCol : IVec S600000x1 32 :=
  broadcastInDim S600000x1 ![0] bcast_S600000_S600000x1_0 dst

noncomputable def zeroT : FVec Ideal S50000x128 .f32 :=
  broadcastInDim S50000x128 ![] bcast_S_S50000x128 (constant (F := Ideal) S_ .f32 0x00000000#32)

/-- The gathered source rows summed into their destination rows. -/
noncomputable def aggT : FVec Ideal S50000x128 .f32 :=
  Host.scatterAdd scatter_S50000x128_S600000x1_S600000x128_1_0_0_1 zeroT (dstCol dst)
    (Host.gather gather_S50000x128_S600000x1_S600000x128_1_0_n_n_0_1_1128 h (srcCol src))

/-- Features times a weight matrix, plus a bias, at every node. -/
noncomputable def linT : FVec Ideal S50000x128 .f32 :=
  addf (Host.dotGeneral dot_S50000x128_S128x128_S50000x128_1_0_0_1_n_n none x W) (Read.val_main_v13 (F := Ideal) b)

/-- Two such maps with a rectifier between them, applied to the features plus their aggregate. -/
noncomputable def layerT : FVec Ideal S50000x128 .f32 :=
  linT (maximumf (linT (addf h (aggT h src dst)) Wa ba) zeroT) Wb bb

/-- The rectified layer: the node features the second layer starts from. -/
noncomputable def hidT : FVec Ideal S50000x128 .f32 :=
  maximumf (layerT h src dst Wa ba Wb bb) zeroT

theorem zeroT_apply (i : S50000x128.Idx) : zeroT i = 0 :=
  Ideal.ofBits_zero_f32

theorem idx_bias (n : Fin 50000) (j : Fin 128) : Read.idx_main_v12 (Read.idx_main_v13 (ix2 n j)) = ix1 j :=
  funext fun a => match a with | ⟨0, _⟩ => rfl

theorem dstCol_apply (e : Fin 600000) : dstCol dst (ix2 e (0 : Fin 1)) = dst (ix1 e) := by
  unfold dstCol
  exact broadcastInDim_apply _ bcast_S600000_S600000x1_0 dst (ix2 e (0 : Fin 1)) (ix1 e) (fun a => match a with
    | ⟨0, _⟩ => by show e.val = if (600000 : Nat) = 1 then 0 else e.val; rw [if_neg (by decide)])

theorem slt_zero_of_nonneg (w : BitVec 32) (h0 : 0 ≤ w.toInt) : IntOp.cmpi .slt w 0#32 = 0#1 := by
  have hs : w.slt 0#32 = false := by
    unfold BitVec.slt
    rw [BitVec.toInt_zero]
    exact decide_eq_false (by omega)
  show BitVec.ofBool (w.slt 0#32) = 0#1
  rw [hs]
  rfl

/-- A source index that is not negative is left unchanged by the wrap. -/
theorem srcCol_apply (e : Fin 600000) (h0 : 0 ≤ (src (ix1 e)).toInt) :
    srcCol src (ix2 e (0 : Fin 1)) = src (ix1 e) := by
  unfold srcCol
  rw [broadcastInDim_apply _ bcast_S600000_S600000x1_0 _ (ix2 e (0 : Fin 1)) (ix1 e) (fun a => match a with
    | ⟨0, _⟩ => by show e.val = if (600000 : Nat) = 1 then 0 else e.val; rw [if_neg (by decide)])]
  rw [select_apply]
  have hc : cmpi .slt src (broadcastInDim S600000 ![] bcast_S_S600000 (constantI S_ 32 0#32)) (ix1 e) = 0#1 :=
    slt_zero_of_nonneg (src (ix1 e)) h0
  rw [hc, select_zero]

theorem gather_apply (e : Fin 600000) (q : Fin 128) (h0 : 0 ≤ (src (ix1 e)).toInt) :
    Host.gather gather_S50000x128_S600000x1_S600000x128_1_0_n_n_0_1_1128 h (srcCol src) (ix2 e q)
      = h (ix2 (Cert.GinSpec.rowOf (src (ix1 e))) q) := by
  rw [HostIdx2.gather_rows_apply (by decide) gather_S50000x128_S600000x1_S600000x128_1_0_n_n_0_1_1128 rfl rfl rfl rfl rfl rfl rfl
    h (srcCol src) e q]
  refine congrArg (fun r => h (ix2 r q)) (Fin.ext ?_)
  show min (srcCol src (ix2 e (0 : Fin 1))).toInt.toNat (50000 - 1) = min (src (ix1 e)).toInt.toNat 49999
  rw [srcCol_apply src e h0]

theorem scatter_apply (idx : IVec S600000x1 32) (upd : FVec Ideal S600000x128 .f32) (n : Fin 50000) (t : Fin 128) :
    Host.scatterAdd scatter_S50000x128_S600000x1_S600000x128_1_0_0_1 x idx upd (ix2 n t)
      = x (ix2 n t) + ∑ e ∈ Finset.univ.filter (fun e : Fin 600000 => (idx (ix2 e (0 : Fin 1))).toInt = (n.val : ℤ)), upd (ix2 e t) := by
  unfold Host.scatterAdd
  rw [Ideal.hostScatterAdd_def]
  exact Cert.LibScatterAdd.scatterAdd_rows_apply scatter_S50000x128_S600000x1_S600000x128_1_0_0_1 rfl rfl rfl rfl x idx upd n t

/-- The scatter of the gathered rows from the zero table is the sum aggregation. -/
theorem aggT_apply (hs : ∀ e : Fin 600000, 0 ≤ (src (ix1 e)).toInt) (n : Fin 50000) (t : Fin 128) :
    aggT h src dst (ix2 n t) = Cert.GinSpec.agg h src dst n t := by
  unfold aggT Cert.GinSpec.agg
  rw [scatter_apply, zeroT_apply, zero_add, Finset.sum_filter]
  refine Finset.sum_congr rfl fun e _ => ?_
  rw [dstCol_apply, gather_apply h src e t (hs e)]

theorem linT_apply (n : Fin 50000) (j : Fin 128) :
    linT x W b (ix2 n j) = Cert.GinSpec.lin (fun n k => x (ix2 n k)) W b n j := by
  unfold linT Cert.GinSpec.lin
  rw [addf_apply, Cert.LibPlainDot.dotGeneral_apply dot_S50000x128_S128x128_S50000x128_1_0_0_1_n_n rfl, Read.val_main_v13_apply,
    Read.val_main_v12_apply, idx_bias]

/-- At node `n` and feature `j` the layer is the specification's `layer`. -/
theorem layerT_apply (hs : ∀ e : Fin 600000, 0 ≤ (src (ix1 e)).toInt) (n : Fin 50000) (j : Fin 128) :
    layerT h src dst Wa ba Wb bb (ix2 n j) = Cert.GinSpec.layer h src dst Wa ba Wb bb n j := by
  unfold layerT Cert.GinSpec.layer
  rw [linT_apply]
  refine congrArg (fun f => Cert.GinSpec.lin f Wb bb n j) (funext fun n' => funext fun k => ?_)
  rw [maximumf_apply, zeroT_apply, linT_apply]
  refine congrArg (fun f => max (Cert.GinSpec.lin f Wa ba n' k) 0) (funext fun n'' => funext fun k' => ?_)
  rw [addf_apply, aggT_apply h src dst hs]

theorem hidT_eq (hs : ∀ e : Fin 600000, 0 ≤ (src (ix1 e)).toInt) :
    hidT h src dst Wa ba Wb bb = Cert.GinSpec.hidden h src dst Wa ba Wb bb := by
  funext i
  rw [eq_ix2 i]
  exact congrArg₂ max (layerT_apply h src dst Wa ba Wb bb hs _ _) (zeroT_apply _)

/-- By unfolding, the result is the layer applied to the rectified layer. -/
theorem val40_layers (Wc : FVec Ideal S128x128 .f32) (bc : FVec Ideal S128 .f32) (Wd : FVec Ideal S128x128 .f32)
    (bd : FVec Ideal S128 .f32) :
    Read.val_main_v40 (F := Ideal) h src dst Wa ba Wb bb Wc bc Wd bd
      = layerT (hidT h src dst Wa ba Wb bb) src dst Wc bc Wd bd := rfl

/-- The reference computes the specification's `out` when every source index is nonnegative. -/
theorem res_out0_eq (m : (ℓ : Loc nD τ sig) → Buf (Elt Ideal) ℓ) (c : Dev nD)
    (hsrc : ∀ e : Fin 600000,
      0 ≤ ((m ((c.tc : Thread nD τ).loc main_arg1) : S600000.Idx → BitVec 32) (ix1 e)).toInt
        ∧ ((m ((c.tc : Thread nD τ).loc main_arg1) : S600000.Idx → BitVec 32) (ix1 e)).toInt < 50000) :
    Cert.ReferenceIdeal.Value.res_out0 (F := Ideal) m c
      = Cert.GinSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  have hs := fun e => (hsrc e).1
  refine (Read.val_main_v40_eq (F := Ideal) m c).trans ?_
  rw [val40_layers, hidT_eq _ _ _ _ _ _ _ hs]
  funext i
  rw [eq_ix2 i]
  exact layerT_apply _ _ _ _ _ _ _ hs _ _

end Cert.RefSide

end
-- ==== Proof.PreDecode.lean ====
import proofs.«431135_j8108898255053_1_alg».proof.Proof.Gen.Pre_finite_inputs
import Idealize.ShloMosaic.Lib.ReduceAll
import Idealize.ShloMosaic.Lib.Affine
import Idealize.ShloMosaic.Lib.ValueIdx

namespace Cert.PreDecode

open Idealize.ShloMosaic Idealize.ShloMosaic.ValueIdx

instance subsingleton_scalar_idx : Subsingleton Cert.Pre_finite_inputs.S_.Idx :=
  ⟨fun a b => funext fun d => d.elim0⟩

/-- Every source index lies in [0, 50000): the precondition's last two conjuncts, read at each entry. -/
theorem src_range [Cert.Pre_finite_inputs.Facts] (a0 : FVec Ideal Cert.Pre_finite_inputs.S50000x128 .f32)
    (a1 a2 : IVec Cert.Pre_finite_inputs.S600000 32) (a3 : FVec Ideal Cert.Pre_finite_inputs.S128x128 .f32)
    (a4 : FVec Ideal Cert.Pre_finite_inputs.S128 .f32) (a5 : FVec Ideal Cert.Pre_finite_inputs.S128x128 .f32)
    (a6 : FVec Ideal Cert.Pre_finite_inputs.S128 .f32) (a7 : FVec Ideal Cert.Pre_finite_inputs.S128x128 .f32)
    (a8 : FVec Ideal Cert.Pre_finite_inputs.S128 .f32) (a9 : FVec Ideal Cert.Pre_finite_inputs.S128x128 .f32)
    (a10 : FVec Ideal Cert.Pre_finite_inputs.S128 .f32)
    (h : Cert.Pre_finite_inputs.fn (F := Ideal) a0 a1 a2 a3 a4 a5 a6 a7 a8 a9 a10 = fun _ => 1#1) :
    ∀ e : Fin 600000, 0 ≤ (a1 (ix1 e)).toInt ∧ (a1 (ix1 e)).toInt < 50000 := by
  have hc := congrFun h ix0
  dsimp only [Cert.Pre_finite_inputs.fn, Cert.Pre_finite_inputs.fn_part1, Cert.Pre_finite_inputs.fn_part2,
    Cert.Pre_finite_inputs.fn_part3] at hc
  obtain ⟨hrest, hlt⟩ := IntOp.andi_eq_one.1 hc
  obtain ⟨-, hge⟩ := IntOp.andi_eq_one.1 hrest
  exact fun e => ⟨IntOp.cmpi_sge.1 (Host.reduce_andi_all _ _ _ _ ix0 hge (ix1 e)),
    IntOp.cmpi_slt.1 (Host.reduce_andi_all _ _ _ _ ix0 hlt (ix1 e))⟩

end Cert.PreDecode
-- ==== Proof.lean ====
import proofs.«431135_j8108898255053_1_alg».proof.Defs
import proofs.«431135_j8108898255053_1_alg».proof.Proof.Gen.Kernel
import proofs.«431135_j8108898255053_1_alg».proof.Proof.Gen.KernelIdeal
import proofs.«431135_j8108898255053_1_alg».proof.Proof.Gen.ReferenceIdeal
import proofs.«431135_j8108898255053_1_alg».proof.Proof.Gen.Pre_finite_inputs
import proofs.«431135_j8108898255053_1_alg».proof.Proof.KWRun
import proofs.«431135_j8108898255053_1_alg».proof.Proof.KIValues
import proofs.«431135_j8108898255053_1_alg».proof.Proof.RefSide
import proofs.«431135_j8108898255053_1_alg».proof.Proof.PreDecode
import Idealize.ShloMosaic.Adequacy
import Idealize.ShloMosaic.Init

noncomputable section

namespace Cert.Proof

open Idealize.ShloMosaic Idealize.SL.Sem Idealize.ShloMosaic.ValueIdx

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end at the two-layer network's value of the arguments; the precondition makes every source word name a node. -/
theorem algebraic [Cert.KernelIdeal.Facts] [Cert.ReferenceIdeal.Facts] [Cert.Pre_finite_inputs.Facts] :
    Cert.algebraic_KernelIdeal_ReferenceIdeal := by
  intro m ρ m' ρ' hpre hagree
  have hsrc : ∀ c : Dev Cert.KernelIdeal.nD, ∀ e : Fin 600000,
      0 ≤ ((m ((c.tc : Thread Cert.KernelIdeal.nD Cert.KernelIdeal.τ).loc Cert.KernelIdeal.main_arg1) : Cert.KernelIdeal.S600000.Idx → BitVec 32) (ix1 e)).toInt
      ∧ ((m ((c.tc : Thread Cert.KernelIdeal.nD Cert.KernelIdeal.τ).loc Cert.KernelIdeal.main_arg1) : Cert.KernelIdeal.S600000.Idx → BitVec 32) (ix1 e)).toInt < 50000 :=
    fun c => Cert.PreDecode.src_range _ _ _ _ _ _ _ _ _ _ _ (hpre c)
  refine ⟨fun c => Cert.KernelIdeal.Gen.netOut m c, ?_, ?_⟩
  · refine (θ_run Cert.KernelIdeal.defs _ _).mono (fun _ h c => ⟨(h c).1.trans ?_, (h c).2⟩)
      (Cert.KernelIdeal.Gen.run_result (F := Ideal) m ρ)
    exact Cert.KernelIdeal.Gen.result_eq m c (hsrc c)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    refine (Cert.RefSide.res_out0_eq m' c (by rw [h1]; exact hsrc c)).trans ?_
    rw [h0, h1, h2, h3, h4, h5, h6, h7, h8, h9, h10]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
